-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x64 .f32) (main_arg6 : FVec F S1 .f32) (main_arg7 : FVec F S1x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x64 .f32 := Host.absf main_arg7
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S64x128 .f32) (main_arg3 : FVec F S64 .f32) (main_arg4 : FVec F S64x128 .f32) (main_arg5 : FVec F S1x64 .f32) (main_arg6 : FVec F S1 .f32) (main_arg7 : FVec F S1x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S128x64 : Shape := ⟨2, ![128, 64]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S100000x2 : Shape := ⟨2, ![100000, 2]⟩
abbrev S5000x64 : Shape := ⟨2, ![5000, 64]⟩
abbrev S5000x128 : Shape := ⟨2, ![5000, 128]⟩
abbrev S5000x2 : Shape := ⟨2, ![5000, 2]⟩
abbrev S5000 : Shape := ⟨1, ![5000]⟩
abbrev S5000x1 : Shape := ⟨2, ![5000, 1]⟩
abbrev S100000x1 : Shape := ⟨2, ![100000, 1]⟩
abbrev S1x1 : Shape := ⟨2, ![1, 1]⟩
abbrev S1x128 : Shape := ⟨2, ![1, 128]⟩
abbrev S128 : Shape := ⟨1, ![128]⟩

abbrev nBuf : Space → Nat
  | .hbm => 51
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S1x64, .f32⟩
  | .hbm, ⟨6, _⟩ => ⟨S1, .f32⟩
  | .hbm, ⟨7, _⟩ => ⟨S1x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S128x64, .f32⟩
  | .hbm, ⟨13, _⟩ => ⟨S100000x64, .bf16⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .bf16⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S128x64, .f32⟩
  | .hbm, ⟨29, _⟩ => ⟨S1x64, .f32⟩
  | .hbm, ⟨30, _⟩ => ⟨S100000x2, .f32⟩
  | .hbm, ⟨31, _⟩ => ⟨S100000x1, .f32⟩
  | .hbm, ⟨32, _⟩ => ⟨S100000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x1, .f32⟩
  | .hbm, ⟨42, _⟩ => ⟨S_, .f32⟩
  | .hbm, ⟨43, _⟩ => ⟨S100000x1, .f32⟩
  | .hbm, ⟨44, _⟩ => ⟨S1600000x1, .i32⟩
  | .hbm, ⟨45, _⟩ => ⟨S100000x1, .f32⟩
  | .hbm, ⟨46, _⟩ => ⟨S100000x1, .f32⟩
  | .hbm, ⟨47, _⟩ => ⟨S1x1, .f32⟩
  | .hbm, ⟨48, _⟩ => ⟨S100000x1, .f32⟩
  | .hbm, ⟨49, _⟩ => ⟨S100000x1, .f32⟩
  | .hbm, ⟨50, _⟩ => ⟨S1x128, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S5000x64, .f32⟩
  | .local _ .vmem, ⟨6, _⟩ => ⟨S5000x64, .f32⟩
  | .local _ .vmem, ⟨7, _⟩ => ⟨S5000x128, .f32⟩
  | .local _ .vmem, ⟨8, _⟩ => ⟨S5000x128, .f32⟩
  | .local _ .vmem, ⟨9, _⟩ => ⟨S128x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S5000x2, .f32⟩
  | .local _ .vmem, ⟨14, _⟩ => ⟨S5000x2, .f32⟩
  | .local _ .vmem, ⟨15, _⟩ => ⟨S5000x1, .f32⟩
  | .local _ .vmem, ⟨16, _⟩ => ⟨S5000x1, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x1, .f32⟩
  | .local _ .vmem, ⟨21, _⟩ => ⟨S1x1, .f32⟩
  | .local _ .vmem, ⟨22, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_scratch0 : Ref sig .tc := ⟨.vmem, 20, rfl⟩
abbrev cc2_scratch1 : Ref sig .tc := ⟨.vmem, 21, rfl⟩
abbrev cc2_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v37 : BitVec 1 := Scalar.cmpi .eq arg0 c19_i32
  let v38 : BitVec 32 := Scalar.extui v37
  let c0_i32_18 : BitVec 32 := 0#32
  let v39 : BitVec 1 := Scalar.cmpi .ne v38 c0_i32_18
  v39

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x128_S128x64_1_0 : S64x128.Transposes [1, 0] S128x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x128_S5000x128_0_0 : ∀ a, (![0, 0] : Fin 2 → Nat) a + S5000x128.size a ≤ S5000x128.size a
  h_S5000x128 : 0 < S5000x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  concatenates_S5000x1_S5000x1_S5000x2_d1 : Shape.Concatenates [S5000x1, S5000x1] S5000x2 1
  inb_S5000x2_S5000x2_0_0 : ∀ a, (![0, 0] : Fin 2 → Nat) a + S5000x2.size a ≤ S5000x2.size a
  h_S5000x2 : 0 < S5000x2.numel
  slices_S100000x2_S100000x1_0_0 : S100000x2.Slices ![0, 0] S100000x1
  slices_S100000x2_S100000x1_0_1 : S100000x2.Slices ![0, 1] S100000x1
  bcast_S_S100000x1 : S_.BroadcastsInDim S100000x1 (![] : Fin 0 → Fin S100000x1.rank)
  shapeCasts_S1_S1x1 : S1.ShapeCasts S1x1
  bcast_S1x1_S100000x1_0_1 : S1x1.BroadcastsInDim S100000x1 (![0, 1] : Fin 2 → Fin S100000x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  reduces_S5000x1_S1 : S5000x1.Reduces [0] S1
  broadcasts_S1x1_S5000x1 : S1x1.Broadcasts S5000x1
  broadcasts_S1x1_S1x128 : S1x1.Broadcasts S1x128
  broadcasts_S5000x1_S5000x128 : S5000x1.Broadcasts S5000x128
  reduces_S5000x128_S128 : S5000x128.Reduces [0] S128
  shapeCasts_S128_S1x128 : S128.ShapeCasts S1x128
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x64_S5000x64_1_0_0_1_n_n_wf : DotDims.WF S5000x128 S128x64 S5000x64 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x2.size a ≤ S100000x2.size a
  hwx1_6 : ∀ i : grid1.Coords, EltTy.bits .f32 = 32 ∨ (Rect.block (s := S100000x2) S5000x2.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S100000x1.size a
  hwx2_0 : ∀ i : grid2.Coords, EltTy.bits .f32 = 32 ∨ (Rect.block (s := S100000x1) S5000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S5000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128x64 : Shape := ⟨2, ![128, 64]⟩
abbrev S100000x64 : Shape := ⟨2, ![100000, 64]⟩
abbrev S1600000x64 : Shape := ⟨2, ![1600000, 64]⟩
abbrev S64x1 : Shape := ⟨2, ![64, 1]⟩
abbrev S100000x1 : Shape := ⟨2, ![100000, 1]⟩
abbrev S1x1 : Shape := ⟨2, ![1, 1]⟩
abbrev S1x100000 : Shape := ⟨2, ![1, 100000]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S1x64, .f32⟩
  | .hbm, ⟨6, _⟩ => ⟨S1, .f32⟩
  | .hbm, ⟨7, _⟩ => ⟨S1x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S128x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S128x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S_, .f32⟩
  | .hbm, ⟨35, _⟩ => ⟨S100000x64, .f32⟩
  | .hbm, ⟨36, _⟩ => ⟨S100000x64, .i1⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S64x1, .f32⟩
  | .hbm, ⟨55, _⟩ => ⟨S100000x1, .f32⟩
  | .hbm, ⟨56, _⟩ => ⟨S1x1, .f32⟩
  | .hbm, ⟨57, _⟩ => ⟨S100000x1, .f32⟩
  | .hbm, ⟨58, _⟩ => ⟨S100000x1, .f32⟩
  | .hbm, ⟨59, _⟩ => ⟨S64x1, .f32⟩
  | .hbm, ⟨60, _⟩ => ⟨S100000x1, .f32⟩
  | .hbm, ⟨61, _⟩ => ⟨S100000x1, .f32⟩
  | .hbm, ⟨62, _⟩ => ⟨S_, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S1, .f32⟩
  | .hbm, ⟨67, _⟩ => ⟨S1x1, .f32⟩
  | .hbm, ⟨68, _⟩ => ⟨S100000x1, .f32⟩
  | .hbm, ⟨69, _⟩ => ⟨S100000x1, .f32⟩
  | .hbm, ⟨70, _⟩ => ⟨S100000x1, .f32⟩
  | .hbm, ⟨71, _⟩ => ⟨S_, .f32⟩
  | .hbm, ⟨72, _⟩ => ⟨S1, .f32⟩
  | .hbm, ⟨73, _⟩ => ⟨S1x1, .f32⟩
  | .hbm, ⟨74, _⟩ => ⟨S100000x1, .f32⟩
  | .hbm, ⟨75, _⟩ => ⟨S100000x1, .f32⟩
  | .hbm, ⟨76, _⟩ => ⟨S1x100000, .f32⟩
  | .hbm, ⟨77, _⟩ => ⟨S1x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S1_d0 : S100000x1.ReducesTo [0] S1
  h_S_ : 0 < S_.numel
  bcast_S_S1 : S_.BroadcastsInDim S1 (![] : Fin 0 → Fin S1.rank)
  transposes_S100000x1_S1x100000_1_0 : S100000x1.Transposes [1, 0] S1x100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x1_S100000x1_1_0_0_1_n_n_wf : DotDims.WF S100000x64 S64x1 S100000x1 [1] [0] [0] [1] [] []
  dot_S1x100000_S100000x128_S1x128_1_0_0_1_n_n_wf : DotDims.WF S1x100000 S100000x128 S1x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def dot_S1x100000_S100000x128_S1x128_1_0_0_1_n_n : DotDims S1x100000 S100000x128 S1x128 where
  lhsContracting := [1]
  rhsContracting := [0]
  lhsNonContracting := [0]
  rhsNonContracting := [1]
  lhsBatch := []
  rhsBatch := []
  wf := dot_S1x100000_S100000x128_S1x128_1_0_0_1_n_n_wf

class Facts : Prop extends Facts₀ where

variable [Facts]
-- ==== Proof.K.Reg0.lean ====
import proofs.«409459_j15066745274947_3_alg».proof.Proof.Gen.Kernel.Launch
import proofs.«409459_j15066745274947_3_alg».proof.Proof.Gen.Kernel.Skeleton
import proofs.«409459_j15066745274947_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0
def out0_2 (x0 : Vec F S10000x128 .f32) (x1 : Vec F S128x64 .f32) : Vec F S10000x64 .bf16 :=
  View.canon [⟨r0_2, k0_pay1 (View.ld x0 r0_0) (View.ld x1 r0_1)⟩]
theorem cover0_2 (p : Vec F S10000x64 .bf16) (y : S10000x64.Idx) :
    ∃ pc ∈ ([⟨r0_2, p⟩] : List (View.Piece (Elt F) S10000x64 .bf16)), y ∈ pc.1.set :=
  View.cover_of_tiled [⟨r0_2, p⟩] S10000x64.size (by rfl) y
set_option maxHeartbeats 1000000 in
theorem sound_kernel0 (c : Dev nD) (E : Set ℕ) (i : grid0.Coords)
    (arg0 : Memref sig .tc .vmem S10000x128 .f32) (harg0 : arg0.IsWhole)
    (arg1 : Memref sig .tc .vmem S128x64 .f32) (harg1 : arg1.IsWhole)
    (arg2 : Memref sig .tc .vmem S10000x64 .bf16) (harg2 : arg2.IsWhole)
    (x0 : Vec F S10000x128 .f32) (x1 : Vec F S128x64 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E
          (cc0__project_rel_kernel i arg0 harg0 arg1 harg1 arg2 harg2) K := by
  rw [cc0__project_rel_kernel_eq_skeleton]
  unfold cc0__project_rel_kernel_skel owns
  iintro ⟨⟨%g0, %hg0, Ha⟩, ⟨%g1, %hg1, Hb⟩, ⟨%old, %g2, -, Hc⟩, Hk⟩
  subst hg0 hg1
  sl_exec
  sl_step
  iapply Hk
  isplitl [Ha]
  · iexists g0; isplitr
    · ipureintro; rfl
    · iexact Ha
  isplitl [Hb]
  · iexists g1; isplitr
    · ipureintro; rfl
    · iexact Hb
  iexists _; isplitr
  rotate_left
  · iexact Hc
  · ipureintro
    exact View.read_writes_eq_canon _ _ _ (cover0_2 _)
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))
theorem sound_body0 (c : Dev nD) (t : Fin cfg0.N) :
    bodyPre0 V c t ⊢ wp frame (wpE (defs₀ (F := F)) Variants.none c none) Set.univ (bodyAt0 t) (fun _ => bodyPost0 V c t) := by
  have hΦ : (dat0 V c).Φ t.succ = (dat0 V c).Φ t.castSucc := rfl
  have ho : (dat0 V c).owesAt () t.succ = (dat0 V c).owesAt () t.castSucc := rfl
  unfold bodyPre0 bodyPost0 bodyAt0
  rw [hΦ, ho, after0_0, after0_1, after0_2]
  simp only [before0_0, before0_1]
  iintro ⟨Hinv, Howe, ⟨%da, Ha⟩, ⟨%db, Hb⟩, Hc⟩
  iapply (sound_kernel0 c Set.univ _ _ _ _ _ _ _ (iblk0 V c 0 t) (iblk0 V c 1 t) _)
  isplitl [Ha]
  · iexact Ha
  isplitl [Hb]
  · iexact Hb
  isplitl [Hc]
  · icases Hc with ⟨%dc, Hc⟩
    iexists _; iexact Hc
  iintro ⟨Ha, Hb, Hc⟩
  isplitl [Hinv]
  · iexact Hinv
  isplitl [Howe]
  · iexact Howe
  isplitl [Ha]
  · iexact Ha
  isplitl [Hb]
  · iexact Hb
  iexact Hc
theorem body_obligation0 (c : Dev nD) :
    BodyObligation (dat0 (F := F) V c) (defs₀ (F := F)) Variants.none () Set.univ := fun t => by
  rw [bigSep_W0, bigSep_W0]
  exact sound_body0 V c t
end Cert.Kernel.Hand
end
-- ==== Proof.K.Reg1.lean ====
import proofs.«409459_j15066745274947_3_alg».proof.Proof.Gen.Kernel.Launch
import proofs.«409459_j15066745274947_3_alg».proof.Proof.Gen.Kernel.Skeleton
import proofs.«409459_j15066745274947_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
abbrev r1_0 : Rect S5000x64 := Rect.unit (s := S5000x64) ![0, 0] S5000x64.size inb_S5000x64_S5000x64_0_0
abbrev r1_1 : Rect S5000x128 := Rect.unit (s := S5000x128) ![0, 0] S5000x128.size inb_S5000x128_S5000x128_0_0
abbrev r1_2 : Rect S128x64 := Rect.unit (s := S128x64) ![0, 0] S128x64.size inb_S128x64_S128x64_0_0
abbrev r1_3 : Rect S1x64 := Rect.unit (s := S1x64) ![0, 0] S1x64.size inb_S1x64_S1x64_0_0
abbrev r1_4 : Rect S1x64 := Rect.unit (s := S1x64) ![0, 0] S1x64.size inb_S1x64_S1x64_0_0
abbrev r1_5 : Rect S1x64 := Rect.unit (s := S1x64) ![0, 0] S1x64.size inb_S1x64_S1x64_0_0
abbrev r1_6 : Rect S5000x2 := Rect.unit (s := S5000x2) ![0, 0] S5000x2.size inb_S5000x2_S5000x2_0_0
def out1_6 (x0 : Vec F S5000x64 .f32) (x1 : Vec F S5000x128 .f32) (x2 : Vec F S128x64 .f32) (x3 x4 x5 : Vec F S1x64 .f32) : Vec F S5000x2 .f32 :=
  View.canon [⟨r1_6, k1_pay1 (View.ld x0 r1_0) (View.ld x1 r1_1) (View.ld x2 r1_2) (View.ld x3 r1_3) (View.ld x4 r1_4) (View.ld x5 r1_5)⟩]
theorem cover1_6 (p0 : Vec F S5000x2 .f32) (y : S5000x2.Idx) :
    ∃ pc ∈ ([⟨r1_6, p0⟩] : List (View.Piece (Elt F) S5000x2 .f32)), y ∈ pc.1.set :=
  View.cover_of_tiled [⟨r1_6, p0⟩] S5000x2.size (by rfl) y
set_option maxHeartbeats 1000000 in
theorem sound_kernel1 (c : Dev nD) (E : Set ℕ) (i : grid1.Coords) (arg1 : Memref sig .tc .vmem S5000x64 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x2 .f32) (harg7 : arg7.IsWhole)
    (x0 : Vec F S5000x64 .f32) (x1 : Vec F S5000x128 .f32) (x2 : Vec F S128x64 .f32) (x3 x4 x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__graphconv_gate_kernel i arg1 harg1 arg2 harg2 arg3 harg3 arg4 harg4 arg5 harg5 arg6 harg6 arg7 harg7) K := by
  simp only [cc1__graphconv_gate_kernel_eq_skeleton]; unfold cc1__graphconv_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0
    isplitr
    · ipureintro; rfl
    · iexact H0
  isplitl [H1]
  · iexists f1
    isplitr
    · ipureintro; rfl
    · iexact H1
  isplitl [H2]
  · iexists f2
    isplitr
    · ipureintro; rfl
    · iexact H2
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  iexists _
  isplitr
  swap
  · iexact H6
  · ipureintro
    exact View.read_writes_eq_canon _ _ _ (cover1_6 _)
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6
theorem body_obligation1 (c : Dev nD) : BodyObligation (dat1 (F := F) V c) (defs₀ (F := F)) Variants.none () Set.univ := fun t => by
  rw [bigSep_W1, bigSep_W1]
  exact sound_body1 V c t
end Cert.Kernel.Hand
end
-- ==== Proof.K.Reg2.lean ====
import proofs.«409459_j15066745274947_3_alg».proof.Proof.Gen.Kernel.Launch
import proofs.«409459_j15066745274947_3_alg».proof.Proof.Gen.Kernel.Skeleton
import proofs.«409459_j15066745274947_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
abbrev cond2_1 (i : grid2.Coords) : Prop := k2_cond2 i = 1#1
theorem hcond2_1 : ∀ t : Fin cfg2.N, cond2_1 (grid2.coords t) ↔ t.val = 19 :=
  (by decide +kernel : ∀ t : Fin grid2.N, cond2_1 (grid2.coords t) ↔ t.val = 19)
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel
abbrev ms2_0 (t : Fin cfg2.N) : Memref sig .tc .vmem S5000x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev scM2_0 : Memref sig .tc .vmem S1x1 .f32 := Memref.whole cc2_scratch0
abbrev scM2_1 : Memref sig .tc .vmem S1x1 .f32 := Memref.whole cc2_scratch1
abbrev scM2_2 : Memref sig .tc .vmem S1x128 .f32 := Memref.whole cc2_scratch2
abbrev others2 (c : Dev nD) : sProp 𝕄 :=
  Pipeline.scopedRestBut (Ix := Unit) (Name := ℕ) (U := UR sig nD τ) (Lvl := ℕ) (Val := Elt F) spec2 c [cc2_scratch0, cc2_scratch1, cc2_scratch2]
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ others2 c) ∗ (∃ r, prngReg c r)) := by
  unfold Pipeline.ΦA
  rw [Pipeline.scopedRest_split_of_list spec2 c [cc2_scratch0, cc2_scratch1, cc2_scratch2] (by decide) (by decide)]
  simp only [scM2_0, scM2_1, scM2_2, owns_whole]; try rfl

abbrev Outs2 (F : FTy → Type) [FloatOps F] : Type := Vec F S1x128 .f32 × Vec F S1x1 .f32 × Vec F S1x1 .f32 × Vec F S1x128 .f32

section Body

variable (c : Dev nD) (i : grid2.Coords) (arg1 : Memref sig .tc .vmem S5000x1 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x128 .f32) (harg6 : arg6.IsWhole)

section First
variable (hc0 : cond2_0 i) (hc1 : ¬cond2_1 i) (x0 : Vec F S5000x1 .f32) (x1 : Vec F S5000x128 .f32)

set_option maxHeartbeats 1000000 in
def kernelRun2_A :
    Σ' (L2 : List (View.Piece (Elt F) S1x128 .f32)) (LS0 : List (View.Piece (Elt F) S1x1 .f32)) (LS1 : List (View.Piece (Elt F) S1x1 .f32)), { LS2 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc2__softmax_pool_kernel i arg1 harg1 arg2 harg2 arg3 harg3 arg4 harg4 arg5 harg5 arg6 harg6) K } := by
  refine ⟨[], ?_, ?_, ?_, fun xi2 E K => ?run⟩
  case run =>
    simp only [cc2__softmax_pool_kernel_eq_skeleton]; unfold cc2__softmax_pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

theorem scover2_A_0 : ∀ y, ∃ pc ∈ (kernelRun2_A c i arg1 harg1 arg2 harg2 arg3 harg3 arg4 harg4 arg5 harg5 arg6 harg6 hc0 hc1 x0 x1).2.1, y ∈ pc.1.set := View.cover_of_tiledL _ S1x1.size (by sl_kernel_rfl)
theorem scover2_A_1 : ∀ y, ∃ pc ∈ (kernelRun2_A c i arg1 harg1 arg2 harg2 arg3 harg3 arg4 harg4 arg5 harg5 arg6 harg6 hc0 hc1 x0 x1).2.2.1, y ∈ pc.1.set := View.cover_of_tiledL _ S1x1.size (by sl_kernel_rfl)
theorem scover2_A_2 : ∀ y, ∃ pc ∈ (kernelRun2_A c i arg1 harg1 arg2 harg2 arg3 harg3 arg4 harg4 arg5 harg5 arg6 harg6 hc0 hc1 x0 x1).2.2.2.1, y ∈ pc.1.set := View.cover_of_tiledL _ S1x128.size (by sl_kernel_rfl)
def outs2_A : Outs2 F :=
  (View.canon (kernelRun2_A c i arg1 harg1 arg2 harg2 arg3 harg3 arg4 harg4 arg5 harg5 arg6 harg6 hc0 hc1 x0 x1).1, View.canon (kernelRun2_A c i arg1 harg1 arg2 harg2 arg3 harg3 arg4 harg4 arg5 harg5 arg6 harg6 hc0 hc1 x0 x1).2.1, View.canon (kernelRun2_A c i arg1 harg1 arg2 harg2 arg3 harg3 arg4 harg4 arg5 harg5 arg6 harg6 hc0 hc1 x0 x1).2.2.1, View.canon (kernelRun2_A c i arg1 harg1 arg2 harg2 arg3 harg3 arg4 harg4 arg5 harg5 arg6 harg6 hc0 hc1 x0 x1).2.2.2.1)
end First

section Later
variable (hc0 : ¬cond2_0 i)

section Middle
variable (hc1 : ¬cond2_1 i) (x0 : Vec F S5000x1 .f32) (x1 : Vec F S5000x128 .f32) (xs0 : Vec F S1x1 .f32) (xs1 : Vec F S1x1 .f32) (xs2 : Vec F S1x128 .f32)

set_option maxHeartbeats 1000000 in
def kernelRun2_B :
    Σ' (L2 : List (View.Piece (Elt F) S1x128 .f32)) (LS0 : List (View.Piece (Elt F) S1x1 .f32)) (LS1 : List (View.Piece (Elt F) S1x1 .f32)), { LS2 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc2__softmax_pool_kernel i arg1 harg1 arg2 harg2 arg3 harg3 arg4 harg4 arg5 harg5 arg6 harg6) K } := by
  refine ⟨[], ?_, ?_, ?_, fun xi2 E K => ?run⟩
  case run =>
    simp only [cc2__softmax_pool_kernel_eq_skeleton]; unfold cc2__softmax_pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2
    obtain rfl := harg4.eq_unread hfs0; obtain rfl := harg5.eq_unread hfs1; obtain rfl := harg6.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

theorem scover2_B_0 : ∀ y, ∃ pc ∈ (kernelRun2_B c i arg1 harg1 arg2 harg2 arg3 harg3 arg4 harg4 arg5 harg5 arg6 harg6 hc0 hc1 x0 x1 xs0 xs1 xs2).2.1, y ∈ pc.1.set := View.cover_of_tiledL _ S1x1.size (by sl_kernel_rfl)
theorem scover2_B_1 : ∀ y, ∃ pc ∈ (kernelRun2_B c i arg1 harg1 arg2 harg2 arg3 harg3 arg4 harg4 arg5 harg5 arg6 harg6 hc0 hc1 x0 x1 xs0 xs1 xs2).2.2.1, y ∈ pc.1.set := View.cover_of_tiledL _ S1x1.size (by sl_kernel_rfl)
theorem scover2_B_2 : ∀ y, ∃ pc ∈ (kernelRun2_B c i arg1 harg1 arg2 harg2 arg3 harg3 arg4 harg4 arg5 harg5 arg6 harg6 hc0 hc1 x0 x1 xs0 xs1 xs2).2.2.2.1, y ∈ pc.1.set := View.cover_of_tiledL _ S1x128.size (by sl_kernel_rfl)
def outs2_B : Outs2 F :=
  (View.canon (kernelRun2_B c i arg1 harg1 arg2 harg2 arg3 harg3 arg4 harg4 arg5 harg5 arg6 harg6 hc0 hc1 x0 x1 xs0 xs1 xs2).1, View.canon (kernelRun2_B c i arg1 harg1 arg2 harg2 arg3 harg3 arg4 harg4 arg5 harg5 arg6 harg6 hc0 hc1 x0 x1 xs0 xs1 xs2).2.1, View.canon (kernelRun2_B c i arg1 harg1 arg2 harg2 arg3 harg3 arg4 harg4 arg5 harg5 arg6 harg6 hc0 hc1 x0 x1 xs0 xs1 xs2).2.2.1, View.canon (kernelRun2_B c i arg1 harg1 arg2 harg2 arg3 harg3 arg4 harg4 arg5 harg5 arg6 harg6 hc0 hc1 x0 x1 xs0 xs1 xs2).2.2.2.1)
end Middle

section Last
variable (hc1 : cond2_1 i) (x0 : Vec F S5000x1 .f32) (x1 : Vec F S5000x128 .f32) (xs0 : Vec F S1x1 .f32) (xs1 : Vec F S1x1 .f32) (xs2 : Vec F S1x128 .f32)

set_option maxHeartbeats 1000000 in
def kernelRun2_C :
    Σ' (L2 : List (View.Piece (Elt F) S1x128 .f32)) (LS0 : List (View.Piece (Elt F) S1x1 .f32)) (LS1 : List (View.Piece (Elt F) S1x1 .f32)), { LS2 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc2__softmax_pool_kernel i arg1 harg1 arg2 harg2 arg3 harg3 arg4 harg4 arg5 harg5 arg6 harg6) K } := by
  refine ⟨?_, ?_, ?_, ?_, fun E K => ?run⟩
  case run =>
    simp only [cc2__softmax_pool_kernel_eq_skeleton]; unfold cc2__softmax_pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg1.eq_unread hf0; obtain rfl := harg2.eq_unread hf1
    obtain rfl := harg4.eq_unread hfs0; obtain rfl := harg5.eq_unread hfs1; obtain rfl := harg6.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [HS1]; · iexists _; iexact HS1
    iexists _; iexact HS2

theorem scover2_C_0 : ∀ y, ∃ pc ∈ (kernelRun2_C c i arg1 harg1 arg2 harg2 arg3 harg3 arg4 harg4 arg5 harg5 arg6 harg6 hc0 hc1 x0 x1 xs0 xs1 xs2).2.1, y ∈ pc.1.set := View.cover_of_tiledL _ S1x1.size (by sl_kernel_rfl)
theorem scover2_C_1 : ∀ y, ∃ pc ∈ (kernelRun2_C c i arg1 harg1 arg2 harg2 arg3 harg3 arg4 harg4 arg5 harg5 arg6 harg6 hc0 hc1 x0 x1 xs0 xs1 xs2).2.2.1, y ∈ pc.1.set := View.cover_of_tiledL _ S1x1.size (by sl_kernel_rfl)
theorem scover2_C_2 : ∀ y, ∃ pc ∈ (kernelRun2_C c i arg1 harg1 arg2 harg2 arg3 harg3 arg4 harg4 arg5 harg5 arg6 harg6 hc0 hc1 x0 x1 xs0 xs1 xs2).2.2.2.1, y ∈ pc.1.set := View.cover_of_tiledL _ S1x128.size (by sl_kernel_rfl)
theorem cover2_C_2 : ∀ y, ∃ pc ∈ (kernelRun2_C c i arg1 harg1 arg2 harg2 arg3 harg3 arg4 harg4 arg5 harg5 arg6 harg6 hc0 hc1 x0 x1 xs0 xs1 xs2).1, y ∈ pc.1.set := View.cover_of_tiledL _ S1x128.size (by sl_kernel_rfl)
def outs2_C : Outs2 F :=
  (View.canon (kernelRun2_C c i arg1 harg1 arg2 harg2 arg3 harg3 arg4 harg4 arg5 harg5 arg6 harg6 hc0 hc1 x0 x1 xs0 xs1 xs2).1, View.canon (kernelRun2_C c i arg1 harg1 arg2 harg2 arg3 harg3 arg4 harg4 arg5 harg5 arg6 harg6 hc0 hc1 x0 x1 xs0 xs1 xs2).2.1, View.canon (kernelRun2_C c i arg1 harg1 arg2 harg2 arg3 harg3 arg4 harg4 arg5 harg5 arg6 harg6 hc0 hc1 x0 x1 xs0 xs1 xs2).2.2.1, View.canon (kernelRun2_C c i arg1 harg1 arg2 harg2 arg3 harg3 arg4 harg4 arg5 harg5 arg6 harg6 hc0 hc1 x0 x1 xs0 xs1 xs2).2.2.2.1)
end Last

end Later

end Body

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- the output row and the running maximum, denominator and weighted sum after each point: that case's run on the point's tiles and on what the point before left
def at2_A (c : Dev nD) (t : Fin cfg2.N) (hz : t.val = 0) (hl : ¬t.val = 19) : Outs2 F :=
  outs2_A c (grid2.coords t) (ms2_0 t) (hs2_0 t) (ms2_1 t) (hs2_1 t) (ms2_2 t) (hs2_2 t) scM2_0 (Memref.isWhole_whole _) scM2_1 (Memref.isWhole_whole _) scM2_2 (Memref.isWhole_whole _) ((hcond2_0 t).mpr hz) (fun h => hl ((hcond2_1 t).mp h)) (iblk2 V c 0 t) (iblk2 V c 1 t)
def at2_B (c : Dev nD) (t : Fin cfg2.N) (hz : ¬t.val = 0) (hl : ¬t.val = 19) (s : Vec F S1x1 .f32 × Vec F S1x1 .f32 × Vec F S1x128 .f32) : Outs2 F :=
  outs2_B c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => hz ((hcond2_0 t).mp h)) (fun h => hl ((hcond2_1 t).mp h)) (iblk2 V c 0 t) (iblk2 V c 1 t) s.1 s.2.1 s.2.2
def at2_C (c : Dev nD) (t : Fin cfg2.N) (hz : ¬t.val = 0) (hl : t.val = 19) (s : Vec F S1x1 .f32 × Vec F S1x1 .f32 × Vec F S1x128 .f32) : Outs2 F :=
  outs2_C c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => hz ((hcond2_0 t).mp h)) ((hcond2_1 t).mpr hl) (iblk2 V c 0 t) (iblk2 V c 1 t) s.1 s.2.1 s.2.2

def outsAt2 (c : Dev nD) : (n : ℕ) → n < cfg2.N → Outs2 F
  | 0, hn => at2_A V c ⟨0, hn⟩ rfl (show ¬(0 : ℕ) = 19 by decide)
  | n + 1, hn =>
    if h1 : n + 1 = 19 then at2_C V c ⟨n + 1, hn⟩ (Nat.succ_ne_zero n) h1 (outsAt2 c n (Nat.lt_of_succ_lt hn)).2
    else at2_B V c ⟨n + 1, hn⟩ (Nat.succ_ne_zero n) h1 (outsAt2 c n (Nat.lt_of_succ_lt hn)).2

theorem outsAt2_A (c : Dev nD) (t : Fin cfg2.N) (hz : t.val = 0) (hl : ¬t.val = 19) :
    outsAt2 V c t.val t.isLt = at2_A V c t hz hl := by
  obtain ⟨n, hn⟩ := t
  cases n with
  | zero => exact rfl
  | succ n => exact absurd hz (Nat.succ_ne_zero n)

theorem outsAt2_B (c : Dev nD) (t : Fin cfg2.N) (hz : ¬t.val = 0) (hl : ¬t.val = 19) :
    outsAt2 V c t.val t.isLt = at2_B V c t hz hl (outsAt2 V c (t.val - 1) (Nat.lt_of_le_of_lt (Nat.sub_le _ _) t.isLt)).2 := by
  obtain ⟨n, hn⟩ := t
  cases n with
  | zero => exact absurd rfl hz
  | succ n => exact (dif_neg hl).trans rfl

theorem outsAt2_C (c : Dev nD) (t : Fin cfg2.N) (hz : ¬t.val = 0) (hl : t.val = 19) :
    outsAt2 V c t.val t.isLt = at2_C V c t hz hl (outsAt2 V c (t.val - 1) (Nat.lt_of_le_of_lt (Nat.sub_le _ _) t.isLt)).2 := by
  obtain ⟨n, hn⟩ := t
  cases n with
  | zero => exact absurd rfl hz
  | succ n => exact (dif_pos hl).trans rfl

-- the invariant: before the first point the entry state; afterwards the running maximum, denominator and weighted sum are what the point before left
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.1 ∗ owns (c : Thread nD τ) scM2_1 fullShare (outsAt2 V c n hn).2.2.1 ∗ owns (c : Thread nD τ) scM2_2 fullShare (outsAt2 V c n hn).2.2.2) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).2.1 ∗ owns (c : Thread nD τ) scM2_1 fullShare (outsAt2 V c n hn).2.2.1 ∗ owns (c : Thread nD τ) scM2_2 fullShare (outsAt2 V c n hn).2.2.2) ∗ others2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.1 ∗ owns (c : Thread nD τ) scM2_1 fullShare (outsAt2 V c (n - 1) (by omega)).2.2.1 ∗ owns (c : Thread nD τ) scM2_2 fullShare (outsAt2 V c (n - 1) (by omega)).2.2.2) ∗ others2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0
theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)
set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases hz : t.val = 0
  · have hl : ¬t.val = 19 := by omega
    rw [Dat.leavesExact_idle (dat2 V c) 2 t (idleAt2_2 t (fun h => hl ((hcond2_1 t).mp h))) (noFlush2_2 t (fun h => hl ((hcond2_1 t).mp h)))]
    rw [outsAt2_A V c t hz hl]
    unfold at2_A outs2_A; dsimp only
    rw [PhiS2_castSucc V c t, PhiS2_zero V c _ _ hz, PhiA2_eq]
    iintro ⟨⟨⟨⟨HS0, HS1, HS2⟩, Hoth⟩, Hg⟩, Ho, ⟨%d0, H0⟩, ⟨%d1, H1⟩, ⟨%d2, H2⟩⟩
    iapply ((kernelRun2_A c (grid2.coords t) _ _ _ _ _ _ _ _ _ _ _ _ ((hcond2_0 t).mpr hz) (fun h => hl ((hcond2_1 t).mp h)) (iblk2 V c 0 t) (iblk2 V c 1 t)).2.2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, ⟨%es0, HS0⟩, ⟨%es1, HS1⟩, ⟨%es2, HS2⟩⟩
    isplitl [HS0 HS1 HS2 Hoth Hg]
    · isplitr [Hg]
      · isplitr [Hoth]
        · isplitl [HS0]
          · unfold owns; iexists _; isplitr
            swap; · iexact HS0
            ipureintro; exact View.read_writes_eq_canon _ _ _ (scover2_A_0 c _ _ _ _ _ _ _ _ _ _ _ _ _ _ _ _ _)
          isplitl [HS1]
          · unfold owns; iexists _; isplitr
            swap; · iexact HS1
            ipureintro; exact View.read_writes_eq_canon _ _ _ (scover2_A_1 c _ _ _ _ _ _ _ _ _ _ _ _ _ _ _ _ _)
          unfold owns; iexists _; isplitr
          swap; · iexact HS2
          ipureintro; exact View.read_writes_eq_canon _ _ _ (scover2_A_2 c _ _ _ _ _ _ _ _ _ _ _ _ _ _ _ _ _)
        · iexact Hoth
      · iexact Hg
    isplitl [Ho]; · iexact Ho
    isplitl [H0]; · iexact H0
    isplitl [H1]; · iexact H1
    iexists _; iexact H2
  · by_cases hl : t.val = 19
    · rw [show (dat2 V c).leavesExact 2 t = owns (c : Thread nD τ) (ms2_2 t) fullShare ((dat2 V c).after 2 t) from by
        unfold Dat.leavesExact; rw [liveAt2_2 t ((hcond2_1 t).mpr hl)], after2_2]
      rw [outsAt2_C V c t hz hl]
      unfold at2_C outs2_C; dsimp only
      rw [PhiS2_castSucc V c t, PhiS2_pos V c _ _ hz]
      iintro ⟨⟨⟨⟨HS0, HS1, HS2⟩, Hoth⟩, Hg⟩, Ho, ⟨%d0, H0⟩, ⟨%d1, H1⟩, ⟨%d2, H2⟩⟩
      iapply ((kernelRun2_C c (grid2.coords t) _ _ _ _ _ _ _ _ _ _ _ _ (fun h => hz ((hcond2_0 t).mp h)) ((hcond2_1 t).mpr hl) (iblk2 V c 0 t) (iblk2 V c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 Hoth Hg]
      · isplitr [Hg]
        · isplitr [Hoth]
          · isplitl [HS0]
            · unfold owns; iexists _; isplitr
              swap; · iexact HS0
              ipureintro; exact View.read_writes_eq_canon _ _ _ (scover2_C_0 c _ _ _ _ _ _ _ _ _ _ _ _ _ _ _ _ _ _ _ _)
            isplitl [HS1]
            · unfold owns; iexists _; isplitr
              swap; · iexact HS1
              ipureintro; exact View.read_writes_eq_canon _ _ _ (scover2_C_1 c _ _ _ _ _ _ _ _ _ _ _ _ _ _ _ _ _ _ _ _)
            unfold owns; iexists _; isplitr
            swap; · iexact HS2
            ipureintro; exact View.read_writes_eq_canon _ _ _ (scover2_C_2 c _ _ _ _ _ _ _ _ _ _ _ _ _ _ _ _ _ _ _ _)
          · iexact Hoth
        · iexact Hg
      isplitl [Ho]; · iexact Ho
      isplitl [H0]; · iexact H0
      isplitl [H1]; · iexact H1
      unfold owns; iexists _; isplitr
      swap; · iexact H2
      ipureintro; exact View.read_writes_eq_canon _ _ _ (cover2_C_2 c _ _ _ _ _ _ _ _ _ _ _ _ _ _ _ _ _ _ _ _)
    · rw [Dat.leavesExact_idle (dat2 V c) 2 t (idleAt2_2 t (fun h => hl ((hcond2_1 t).mp h))) (noFlush2_2 t (fun h => hl ((hcond2_1 t).mp h)))]
      rw [outsAt2_B V c t hz hl]
      unfold at2_B outs2_B; dsimp only
      rw [PhiS2_castSucc V c t, PhiS2_pos V c _ _ hz]
      iintro ⟨⟨⟨⟨HS0, HS1, HS2⟩, Hoth⟩, Hg⟩, Ho, ⟨%d0, H0⟩, ⟨%d1, H1⟩, ⟨%d2, H2⟩⟩
      iapply ((kernelRun2_B c (grid2.coords t) _ _ _ _ _ _ _ _ _ _ _ _ (fun h => hz ((hcond2_0 t).mp h)) (fun h => hl ((hcond2_1 t).mp h)) (iblk2 V c 0 t) (iblk2 V c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hoth Hg]
      · isplitr [Hg]
        · isplitr [Hoth]
          · isplitl [HS0]
            · unfold owns; iexists _; isplitr
              swap; · iexact HS0
              ipureintro; exact View.read_writes_eq_canon _ _ _ (scover2_B_0 c _ _ _ _ _ _ _ _ _ _ _ _ _ _ _ _ _ _ _ _)
            isplitl [HS1]
            · unfold owns; iexists _; isplitr
              swap; · iexact HS1
              ipureintro; exact View.read_writes_eq_canon _ _ _ (scover2_B_1 c _ _ _ _ _ _ _ _ _ _ _ _ _ _ _ _ _ _ _ _)
            unfold owns; iexists _; isplitr
            swap; · iexact HS2
            ipureintro; exact View.read_writes_eq_canon _ _ _ (scover2_B_2 c _ _ _ _ _ _ _ _ _ _ _ _ _ _ _ _ _ _ _ _)
          · iexact Hoth
        · iexact Hg
      isplitl [Ho]; · iexact Ho
      isplitl [H0]; · iexact H0
      isplitl [H1]; · iexact H1
      iexists _; iexact H2
theorem body_obligation2 (c : Dev nD) : BodyObligation (dat2 (F := F) V c) (defs₀ (F := F)) Variants.none () Set.univ := fun t => by
  rw [bigSep_W2, bigSep_W2]
  exact sound_body2 V c t
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, Hoth⟩, Hg⟩
  isplitl [HS0 HS1 HS2 Hoth]
  · isplitr [Hoth]
    · isplitl [HS0]; · iexists _; iexact HS0
      isplitl [HS1]; · iexists _; iexact HS1
      iexists _; iexact HS2
    · iexact Hoth
  · iexact Hg
theorem hout2 (c : Dev nD) : (dat2 V c).Φ (Fin.last cfg2.N) ⊢ Pipeline.ΦA spec2 c :=
  Phi_out2 V c _ (by rw [Fin.val_last]; have : cfg2.N = 20 := N_2; omega)
end Cert.Kernel.Hand
end
-- ==== Proof.K.Run.lean ====
import proofs.«409459_j15066745274947_3_alg».proof.Proof.K.Reg0
import proofs.«409459_j15066745274947_3_alg».proof.Proof.K.Reg1
import proofs.«409459_j15066745274947_3_alg».proof.Proof.K.Reg2
import proofs.«409459_j15066745274947_3_alg».proof.Proof.Gen.Kernel.Regions
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev U0 : Dev nD → Valuation τ sig (Elt F) := fun c b => m (c, b)
abbrev U1 : Dev nD → Valuation τ sig (Elt F) := fun c => StableHlo.after hostOps0 (U0 m c)
abbrev T1 : (c : Dev nD) → (b : Ref sig .tc) → Buf (Elt F) ((c : Thread nD τ).loc b) := fun c b => U1 m c b
theorem U1_keep (c : Dev nD) (r : Ref sig .tc) (h : r ∉ hostOps0_W) :
    U1 m c (Proc.devRef .tc r) = U0 m c (Proc.devRef .tc r) :=
  StableHlo.after_of_writes_sub hostOps0 _ hostOps0_writes h
def U2 (c : Dev nD) : Valuation τ sig (Elt F) :=
  Pipeline.withArrays spec0 c (U1 m c) fun w => (dat0 (T1 m) c).arrAt w cfg0.N
theorem U2_arr (c : Dev nD) (w : Fin cfg0.W) :
    U2 m c (Proc.devRef .tc (Pipeline.arrRef spec0 w)) = (dat0 (T1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
abbrev T2 : (c : Dev nD) → (b : Ref sig .tc) → Buf (Elt F) ((c : Thread nD τ).loc b) := fun c b => U2 m c b
theorem leaves0 (c : Dev nD) (w : Fin cfg0.W) : (dat0 (T1 m) c).arrAt w cfg0.N = T2 m c (Pipeline.arrRef spec0 w) :=
  (U2_arr m c w).symm
theorem keeps0 (c : Dev nD) : ∀ b, b ∉ Finset.univ.image (Pipeline.arrRef spec0) → T2 m c b = T1 m c b :=
  fun b hb => U2_of_ne m c b fun w e => hb (Finset.mem_image.mpr ⟨w, Finset.mem_univ _, e⟩)
abbrev U3 : Dev nD → Valuation τ sig (Elt F) := fun c => StableHlo.after hostOps1 (U2 m c)
abbrev T3 : (c : Dev nD) → (b : Ref sig .tc) → Buf (Elt F) ((c : Thread nD τ).loc b) := fun c b => U3 m c b
theorem U3_keep (c : Dev nD) (r : Ref sig .tc) (h : r ∉ hostOps1_W) :
    U3 m c (Proc.devRef .tc r) = U2 m c (Proc.devRef .tc r) :=
  StableHlo.after_of_writes_sub hostOps1 _ hostOps1_writes h
def U4 (c : Dev nD) : Valuation τ sig (Elt F) :=
  Pipeline.withArrays spec1 c (U3 m c) fun w => (dat1 (T3 m) c).arrAt w cfg1.N
theorem U4_arr (c : Dev nD) (w : Fin cfg1.W) :
    U4 m c (Proc.devRef .tc (Pipeline.arrRef spec1 w)) = (dat1 (T3 m) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m c (Proc.devRef .tc b) = U3 m c (Proc.devRef .tc b) := by
  unfold U4; exact Pipeline.withArrays_of_ne spec1 c _ _ b hb
abbrev T4 : (c : Dev nD) → (b : Ref sig .tc) → Buf (Elt F) ((c : Thread nD τ).loc b) := fun c b => U4 m c b
theorem leaves1 (c : Dev nD) (w : Fin cfg1.W) : (dat1 (T3 m) c).arrAt w cfg1.N = T4 m c (Pipeline.arrRef spec1 w) :=
  (U4_arr m c w).symm
theorem keeps1 (c : Dev nD) : ∀ b, b ∉ Finset.univ.image (Pipeline.arrRef spec1) → T4 m c b = T3 m c b :=
  fun b hb => U4_of_ne m c b fun w e => hb (Finset.mem_image.mpr ⟨w, Finset.mem_univ _, e⟩)
abbrev U5 : Dev nD → Valuation τ sig (Elt F) := fun c => StableHlo.after hostOps2 (U4 m c)
abbrev T5 : (c : Dev nD) → (b : Ref sig .tc) → Buf (Elt F) ((c : Thread nD τ).loc b) := fun c b => U5 m c b
theorem U5_keep (c : Dev nD) (r : Ref sig .tc) (h : r ∉ hostOps2_W) :
    U5 m c (Proc.devRef .tc r) = U4 m c (Proc.devRef .tc r) :=
  StableHlo.after_of_writes_sub hostOps2 _ hostOps2_writes h
def U6 (c : Dev nD) : Valuation τ sig (Elt F) :=
  Pipeline.withArrays spec2 c (U5 m c) fun w => (dat2 (T5 m) c).arrAt w cfg2.N
theorem U6_arr (c : Dev nD) (w : Fin cfg2.W) :
    U6 m c (Proc.devRef .tc (Pipeline.arrRef spec2 w)) = (dat2 (T5 m) c).arrAt w cfg2.N := by
  unfold U6; exact Pipeline.withArrays_arr spec2 launch2.win.arr_inj c _ _ w
theorem U6_of_ne (c : Dev nD) (b : Ref sig .tc) (hb : ∀ w, Pipeline.arrRef spec2 w ≠ b) :
    U6 m c (Proc.devRef .tc b) = U5 m c (Proc.devRef .tc b) := by
  unfold U6; exact Pipeline.withArrays_of_ne spec2 c _ _ b hb
abbrev T6 : (c : Dev nD) → (b : Ref sig .tc) → Buf (Elt F) ((c : Thread nD τ).loc b) := fun c b => U6 m c b
theorem leaves2 (c : Dev nD) (w : Fin cfg2.W) : (dat2 (T5 m) c).arrAt w cfg2.N = T6 m c (Pipeline.arrRef spec2 w) :=
  (U6_arr m c w).symm
theorem keeps2 (c : Dev nD) : ∀ b, b ∉ Finset.univ.image (Pipeline.arrRef spec2) → T6 m c b = T5 m c b :=
  fun b hb => U6_of_ne m c b fun w e => hb (Finset.mem_image.mpr ⟨w, Finset.mem_univ _, e⟩)
theorem U6_main_arg0 (c : Dev nD) : U6 m c (Proc.devRef .tc main_arg0) = m ((c : Thread nD τ).loc main_arg0) :=
  calc U6 m c (Proc.devRef .tc main_arg0)
    _ = U5 m c (Proc.devRef .tc main_arg0) := (U6_arr m c 1).trans (((dat2 (T5 m) c).arrAt_in 1 rfl _).trans (A_eq2 (T5 m) c 1))
    _ = U4 m c (Proc.devRef .tc main_arg0) := U5_keep m c main_arg0 (by decide)
    _ = U3 m c (Proc.devRef .tc main_arg0) := (U4_arr m c 1).trans (((dat1 (T3 m) c).arrAt_in 1 rfl _).trans (A_eq1 (T3 m) c 1))
    _ = U2 m c (Proc.devRef .tc main_arg0) := U3_keep m c main_arg0 (by decide)
    _ = U1 m c (Proc.devRef .tc main_arg0) := (U2_arr m c 0).trans (((dat0 (T1 m) c).arrAt_in 0 rfl _).trans (A_eq0 (T1 m) c 0))
    _ = U0 m c (Proc.devRef .tc main_arg0) := U1_keep m c main_arg0 (by decide)
    _ = m ((c : Thread nD τ).loc main_arg0) := rfl
-- an array that no host stretch writes and that the first and last regions do not touch ends as launched
theorem U6_keep (c : Dev nD) (r : Ref sig .tc) (s1 : U4 m c (Proc.devRef .tc r) = U3 m c (Proc.devRef .tc r))
    (h0 : r ∉ hostOps0_W := by decide) (h1 : r ∉ hostOps1_W := by decide) (h2 : r ∉ hostOps2_W := by decide)
    (e0 : ∀ w, Pipeline.arrRef spec0 w ≠ r := by decide) (e2 : ∀ w, Pipeline.arrRef spec2 w ≠ r := by decide) :
    U6 m c (Proc.devRef .tc r) = m ((c : Thread nD τ).loc r) :=
  (U6_of_ne m c r e2).trans ((U5_keep m c r h2).trans (s1.trans ((U3_keep m c r h1).trans ((U2_of_ne m c r e0).trans (U1_keep m c r h0)))))
theorem U6_result (c : Dev nD) : U6 m c (Proc.devRef .tc main_v36) = (dat2 (T5 m) c).arrAt 2 cfg2.N := U6_arr m c 2
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
abbrev Lk : GSem nD τ sig → Finset Unit := fun _ => ∅
abbrev lvk : GSem nD τ sig → Unit → ℕ := fun _ _ => 0
abbrev Rk (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (U6 m c) ∗ ∃ r, prngReg c r)
set_option backward.isDefEq.respectTransparency.types false in
def reg0 : Pipeline.RegionSeg (pcfgs (F := F)) adm (pdats m) () defs₀ Variants.none Lk lvk 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Lk lvk 0 fun _ _ => rfl
  pre c := iprop(StableHlo.held (c : Thread nD τ) (Pipeline.ucRefs τ sig) (U1 m c) ∗ Rk c)
  post c := iprop(StableHlo.held (c : Thread nD τ) (Pipeline.ucRefs τ sig) (U2 m c) ∗ Rk c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (leaves0 m c) (keeps0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m) () defs₀ Variants.none Lk lvk 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ Lk lvk 1 fun _ _ => rfl
  pre c := iprop(StableHlo.held (c : Thread nD τ) (Pipeline.ucRefs τ sig) (U3 m c) ∗ Rk c)
  post c := iprop(StableHlo.held (c : Thread nD τ) (Pipeline.ucRefs τ sig) (U4 m c) ∗ Rk c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (leaves1 m c) (keeps1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg2 : Pipeline.RegionSeg (pcfgs (F := F)) adm (pdats m) () defs₀ Variants.none Lk lvk 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ Lk lvk 2 fun _ _ => rfl
  pre c := iprop(StableHlo.held (c : Thread nD τ) (Pipeline.ucRefs τ sig) (U5 m c) ∗ Rk c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (T5 m) c).Φ 0 from rfl]
    have hΦ : iprop((∃ r, prngReg c r) ∗ Pipeline.prefHeld (pcfgs (F := F) 2).pre c (fun _ => fullShare) (adm (F := F) 2).1
          ∗ Pipeline.scopedRest (Pipeline.pin (pcfgs (F := F)) adm 2).spec c) ⊢ (Pipeline.ΦA spec2 c : sProp 𝕄) := by
      unfold Pipeline.ΦA
      iintro ⟨Hp, -, Hr⟩
      isplitl [Hr]; · iexact Hr
      iexact Hp
    exact hΦ.trans (hin2 (T5 m) c)
  hout c := by
    rw [Pipeline.ownSems0_none, show (pdats m 2 c).Φ (Fin.last _) = (dat2 (T5 m) c).Φ (Fin.last cfg2.N) from rfl]
    have hΦ : (Pipeline.ΦA spec2 c : sProp 𝕄) ⊢ iprop((∃ r, prngReg c r) ∗ BI.emp
          ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (hout2 (T5 m) c).trans hΦ
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (leaves2 m c) (keeps2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO
abbrev items : List (Pipeline.Seg (pcfgs (F := F)) adm (pdats m) () defs₀ Variants.none Lk lvk) :=
  [ .host (hostItem hostOps0 hostOps0_sub hostOps0_fresh (U0 m)),
    .region (reg0 m),
    .host (hostItem hostOps1 hostOps1_sub hostOps1_fresh (U2 m)),
    .region (reg1 m),
    .host (hostItem hostOps2 hostOps2_sub hostOps2_fresh (U4 m)),
    .region (reg2 m) ]
theorem main_items (c : Dev nD) : main (F := F) c = Pipeline.Seg.run (items m) := (main_chain c).trans (by chain_rfl)
set_option backward.isDefEq.respectTransparency.types false in
theorem run_main : θ_run defs (onTc (τ := τ) (main (F := F))) ⟨m, fun _ => 0, ρ⟩ (fun r => ∀ c : Dev nD,
      r.2.mem ((c.tc : Thread nD τ).loc main_v36) = U6 m c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ Variants.none Lk lvk m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rk c)) (Tₙ := Tlast m)
    (hch := ⟨fun _ => .rfl, fun _ => .rfl, fun _ => .rfl, fun _ => .rfl, fun _ => .rfl, fun _ => .rfl, fun _ => .rfl⟩)
    (hinit := by
      refine Pipeline.initEach Lk lvk fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun s h c =>
      ⟨h c _ (mem_ucRefs main_v36 (by decide)),
       (h c _ (mem_ucRefs main_arg0 (by decide))).trans (U6_main_arg0 m c),
       (h c _ (mem_ucRefs main_arg1 (by decide))).trans (U6_keep m c main_arg1 (U4_of_ne m c main_arg1 (by decide))),
       (h c _ (mem_ucRefs main_arg2 (by decide))).trans (U6_keep m c main_arg2 (U4_of_ne m c main_arg2 (by decide))),
       (h c _ (mem_ucRefs main_arg3 (by decide))).trans (U6_keep m c main_arg3 (U4_of_ne m c main_arg3 (by decide))),
       (h c _ (mem_ucRefs main_arg4 (by decide))).trans (U6_keep m c main_arg4 (U4_of_ne m c main_arg4 (by decide))),
       (h c _ (mem_ucRefs main_arg5 (by decide))).trans (U6_keep m c main_arg5 ((U4_arr m c 4).trans (((dat1 (T3 m) c).arrAt_in 4 rfl _).trans (A_eq1 (T3 m) c 4)))),
       (h c _ (mem_ucRefs main_arg6 (by decide))).trans (U6_keep m c main_arg6 (U4_of_ne m c main_arg6 (by decide))),
       (h c _ (mem_ucRefs main_arg7 (by decide))).trans (U6_keep m c main_arg7 ((U4_arr m c 5).trans (((dat1 (T3 m) c).arrAt_in 5 rfl _).trans (A_eq1 (T3 m) c 5))))⟩)
end Cert.Kernel.Hand
end
-- ==== Proof.KI.Reg0.lean ====
import proofs.«409459_j15066745274947_3_alg».proof.Proof.Gen.KernelIdeal.Launch
import proofs.«409459_j15066745274947_3_alg».proof.Proof.Gen.KernelIdeal.Skeleton
import proofs.«409459_j15066745274947_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0
def out0_2 (x0 : Vec F S10000x128 .f32) (x1 : Vec F S128x64 .f32) : Vec F S10000x64 .bf16 :=
  View.canon [⟨r0_2, k0_pay1 (View.ld x0 r0_0) (View.ld x1 r0_1)⟩]
theorem cover0_2 (p : Vec F S10000x64 .bf16) (y : S10000x64.Idx) :
    ∃ pc ∈ ([⟨r0_2, p⟩] : List (View.Piece (Elt F) S10000x64 .bf16)), y ∈ pc.1.set :=
  View.cover_of_tiled [⟨r0_2, p⟩] S10000x64.size (by rfl) y
set_option maxHeartbeats 1000000 in
theorem sound_kernel0 (c : Dev nD) (E : Set ℕ) (i : grid0.Coords)
    (arg0 : Memref sig .tc .vmem S10000x128 .f32) (harg0 : arg0.IsWhole)
    (arg1 : Memref sig .tc .vmem S128x64 .f32) (harg1 : arg1.IsWhole)
    (arg2 : Memref sig .tc .vmem S10000x64 .bf16) (harg2 : arg2.IsWhole)
    (x0 : Vec F S10000x128 .f32) (x1 : Vec F S128x64 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E
          (cc0__project_rel_kernel i arg0 harg0 arg1 harg1 arg2 harg2) K := by
  rw [cc0__project_rel_kernel_eq_skeleton]
  unfold cc0__project_rel_kernel_skel owns
  iintro ⟨⟨%g0, %hg0, Ha⟩, ⟨%g1, %hg1, Hb⟩, ⟨%old, %g2, -, Hc⟩, Hk⟩
  subst hg0 hg1
  sl_exec
  sl_step
  iapply Hk
  isplitl [Ha]
  · iexists g0; isplitr
    · ipureintro; rfl
    · iexact Ha
  isplitl [Hb]
  · iexists g1; isplitr
    · ipureintro; rfl
    · iexact Hb
  iexists _; isplitr
  rotate_left
  · iexact Hc
  · ipureintro
    exact View.read_writes_eq_canon _ _ _ (cover0_2 _)
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0
theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))
theorem sound_body0 (c : Dev nD) (t : Fin cfg0.N) :
    bodyPre0 V c t ⊢ wp frame (wpE (defs₀ (F := F)) Variants.none c none) Set.univ (bodyAt0 t) (fun _ => bodyPost0 V c t) := by
  have hΦ : (dat0 V c).Φ t.succ = (dat0 V c).Φ t.castSucc := rfl
  have ho : (dat0 V c).owesAt () t.succ = (dat0 V c).owesAt () t.castSucc := rfl
  unfold bodyPre0 bodyPost0 bodyAt0
  rw [hΦ, ho, after0_0, after0_1, after0_2]
  simp only [before0_0, before0_1]
  iintro ⟨Hinv, Howe, ⟨%da, Ha⟩, ⟨%db, Hb⟩, Hc⟩
  iapply (sound_kernel0 c Set.univ _ _ _ _ _ _ _ (iblk0 V c 0 t) (iblk0 V c 1 t) _)
  isplitl [Ha]
  · iexact Ha
  isplitl [Hb]
  · iexact Hb
  isplitl [Hc]
  · icases Hc with ⟨%dc, Hc⟩
    iexists _; iexact Hc
  iintro ⟨Ha, Hb, Hc⟩
  isplitl [Hinv]
  · iexact Hinv
  isplitl [Howe]
  · iexact Howe
  isplitl [Ha]
  · iexact Ha
  isplitl [Hb]
  · iexact Hb
  iexact Hc
theorem body_obligation0 (c : Dev nD) :
    BodyObligation (dat0 (F := F) V c) (defs₀ (F := F)) Variants.none () Set.univ := fun t => by
  rw [bigSep_W0, bigSep_W0]
  exact sound_body0 V c t
end Cert.KernelIdeal.Hand
end
-- ==== Proof.KI.Reg1.lean ====
import proofs.«409459_j15066745274947_3_alg».proof.Proof.Gen.KernelIdeal.Launch
import proofs.«409459_j15066745274947_3_alg».proof.Proof.Gen.KernelIdeal.Skeleton
import proofs.«409459_j15066745274947_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
abbrev r1_0 : Rect S5000x64 := Rect.unit (s := S5000x64) ![0, 0] S5000x64.size inb_S5000x64_S5000x64_0_0
abbrev r1_1 : Rect S5000x128 := Rect.unit (s := S5000x128) ![0, 0] S5000x128.size inb_S5000x128_S5000x128_0_0
abbrev r1_2 : Rect S128x64 := Rect.unit (s := S128x64) ![0, 0] S128x64.size inb_S128x64_S128x64_0_0
abbrev r1_3 : Rect S1x64 := Rect.unit (s := S1x64) ![0, 0] S1x64.size inb_S1x64_S1x64_0_0
abbrev r1_4 : Rect S1x64 := Rect.unit (s := S1x64) ![0, 0] S1x64.size inb_S1x64_S1x64_0_0
abbrev r1_5 : Rect S1x64 := Rect.unit (s := S1x64) ![0, 0] S1x64.size inb_S1x64_S1x64_0_0
abbrev r1_6 : Rect S5000x2 := Rect.unit (s := S5000x2) ![0, 0] S5000x2.size inb_S5000x2_S5000x2_0_0
def out1_6 (x0 : Vec F S5000x64 .f32) (x1 : Vec F S5000x128 .f32) (x2 : Vec F S128x64 .f32) (x3 x4 x5 : Vec F S1x64 .f32) : Vec F S5000x2 .f32 :=
  View.canon [⟨r1_6, k1_pay1 (View.ld x0 r1_0) (View.ld x1 r1_1) (View.ld x2 r1_2) (View.ld x3 r1_3) (View.ld x4 r1_4) (View.ld x5 r1_5)⟩]
theorem cover1_6 (p0 : Vec F S5000x2 .f32) (y : S5000x2.Idx) :
    ∃ pc ∈ ([⟨r1_6, p0⟩] : List (View.Piece (Elt F) S5000x2 .f32)), y ∈ pc.1.set :=
  View.cover_of_tiled [⟨r1_6, p0⟩] S5000x2.size (by rfl) y
set_option maxHeartbeats 1000000 in
theorem sound_kernel1 (c : Dev nD) (E : Set ℕ) (i : grid1.Coords) (arg1 : Memref sig .tc .vmem S5000x64 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S5000x2 .f32) (harg7 : arg7.IsWhole)
    (x0 : Vec F S5000x64 .f32) (x1 : Vec F S5000x128 .f32) (x2 : Vec F S128x64 .f32) (x3 x4 x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__graphconv_gate_kernel i arg1 harg1 arg2 harg2 arg3 harg3 arg4 harg4 arg5 harg5 arg6 harg6 arg7 harg7) K := by
  simp only [cc1__graphconv_gate_kernel_eq_skeleton]; unfold cc1__graphconv_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0
    isplitr
    · ipureintro; rfl
    · iexact H0
  isplitl [H1]
  · iexists f1
    isplitr
    · ipureintro; rfl
    · iexact H1
  isplitl [H2]
  · iexists f2
    isplitr
    · ipureintro; rfl
    · iexact H2
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  iexists _
  isplitr
  swap
  · iexact H6
  · ipureintro
    exact View.read_writes_eq_canon _ _ _ (cover1_6 _)
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6
theorem body_obligation1 (c : Dev nD) : BodyObligation (dat1 (F := F) V c) (defs₀ (F := F)) Variants.none () Set.univ := fun t => by
  rw [bigSep_W1, bigSep_W1]
  exact sound_body1 V c t
end Cert.KernelIdeal.Hand
end
-- ==== Proof.KI.Reg2.lean ====
import proofs.«409459_j15066745274947_3_alg».proof.Proof.Gen.KernelIdeal.Launch
import proofs.«409459_j15066745274947_3_alg».proof.Proof.Gen.KernelIdeal.Skeleton
import proofs.«409459_j15066745274947_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
abbrev cond2_1 (i : grid2.Coords) : Prop := k2_cond2 i = 1#1
theorem hcond2_1 : ∀ t : Fin cfg2.N, cond2_1 (grid2.coords t) ↔ t.val = 19 :=
  (by decide +kernel : ∀ t : Fin grid2.N, cond2_1 (grid2.coords t) ↔ t.val = 19)
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel
abbrev ms2_0 (t : Fin cfg2.N) : Memref sig .tc .vmem S5000x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev scM2_0 : Memref sig .tc .vmem S1x1 .f32 := Memref.whole cc2_scratch0
abbrev scM2_1 : Memref sig .tc .vmem S1x1 .f32 := Memref.whole cc2_scratch1
abbrev scM2_2 : Memref sig .tc .vmem S1x128 .f32 := Memref.whole cc2_scratch2
abbrev others2 (c : Dev nD) : sProp 𝕄 :=
  Pipeline.scopedRestBut (Ix := Unit) (Name := ℕ) (U := UR sig nD τ) (Lvl := ℕ) (Val := Elt F) spec2 c [cc2_scratch0, cc2_scratch1, cc2_scratch2]
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ others2 c) ∗ (∃ r, prngReg c r)) := by
  unfold Pipeline.ΦA
  rw [Pipeline.scopedRest_split_of_list spec2 c [cc2_scratch0, cc2_scratch1, cc2_scratch2] (by decide) (by decide)]
  simp only [scM2_0, scM2_1, scM2_2, owns_whole]; try rfl

abbrev Outs2 (F : FTy → Type) [FloatOps F] : Type := Vec F S1x128 .f32 × Vec F S1x1 .f32 × Vec F S1x1 .f32 × Vec F S1x128 .f32

section Body

variable (c : Dev nD) (i : grid2.Coords) (arg1 : Memref sig .tc .vmem S5000x1 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x128 .f32) (harg6 : arg6.IsWhole)

section First
variable (hc0 : cond2_0 i) (hc1 : ¬cond2_1 i) (x0 : Vec F S5000x1 .f32) (x1 : Vec F S5000x128 .f32)

set_option maxHeartbeats 1000000 in
def kernelRun2_A :
    Σ' (L2 : List (View.Piece (Elt F) S1x128 .f32)) (LS0 : List (View.Piece (Elt F) S1x1 .f32)) (LS1 : List (View.Piece (Elt F) S1x1 .f32)), { LS2 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc2__softmax_pool_kernel i arg1 harg1 arg2 harg2 arg3 harg3 arg4 harg4 arg5 harg5 arg6 harg6) K } := by
  refine ⟨[], ?_, ?_, ?_, fun xi2 E K => ?run⟩
  case run =>
    simp only [cc2__softmax_pool_kernel_eq_skeleton]; unfold cc2__softmax_pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

theorem scover2_A_0 : ∀ y, ∃ pc ∈ (kernelRun2_A c i arg1 harg1 arg2 harg2 arg3 harg3 arg4 harg4 arg5 harg5 arg6 harg6 hc0 hc1 x0 x1).2.1, y ∈ pc.1.set := View.cover_of_tiledL _ S1x1.size (by sl_kernel_rfl)
theorem scover2_A_1 : ∀ y, ∃ pc ∈ (kernelRun2_A c i arg1 harg1 arg2 harg2 arg3 harg3 arg4 harg4 arg5 harg5 arg6 harg6 hc0 hc1 x0 x1).2.2.1, y ∈ pc.1.set := View.cover_of_tiledL _ S1x1.size (by sl_kernel_rfl)
theorem scover2_A_2 : ∀ y, ∃ pc ∈ (kernelRun2_A c i arg1 harg1 arg2 harg2 arg3 harg3 arg4 harg4 arg5 harg5 arg6 harg6 hc0 hc1 x0 x1).2.2.2.1, y ∈ pc.1.set := View.cover_of_tiledL _ S1x128.size (by sl_kernel_rfl)
def outs2_A : Outs2 F :=
  (View.canon (kernelRun2_A c i arg1 harg1 arg2 harg2 arg3 harg3 arg4 harg4 arg5 harg5 arg6 harg6 hc0 hc1 x0 x1).1, View.canon (kernelRun2_A c i arg1 harg1 arg2 harg2 arg3 harg3 arg4 harg4 arg5 harg5 arg6 harg6 hc0 hc1 x0 x1).2.1, View.canon (kernelRun2_A c i arg1 harg1 arg2 harg2 arg3 harg3 arg4 harg4 arg5 harg5 arg6 harg6 hc0 hc1 x0 x1).2.2.1, View.canon (kernelRun2_A c i arg1 harg1 arg2 harg2 arg3 harg3 arg4 harg4 arg5 harg5 arg6 harg6 hc0 hc1 x0 x1).2.2.2.1)
end First

section Later
variable (hc0 : ¬cond2_0 i)

section Middle
variable (hc1 : ¬cond2_1 i) (x0 : Vec F S5000x1 .f32) (x1 : Vec F S5000x128 .f32) (xs0 : Vec F S1x1 .f32) (xs1 : Vec F S1x1 .f32) (xs2 : Vec F S1x128 .f32)

set_option maxHeartbeats 1000000 in
def kernelRun2_B :
    Σ' (L2 : List (View.Piece (Elt F) S1x128 .f32)) (LS0 : List (View.Piece (Elt F) S1x1 .f32)) (LS1 : List (View.Piece (Elt F) S1x1 .f32)), { LS2 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc2__softmax_pool_kernel i arg1 harg1 arg2 harg2 arg3 harg3 arg4 harg4 arg5 harg5 arg6 harg6) K } := by
  refine ⟨[], ?_, ?_, ?_, fun xi2 E K => ?run⟩
  case run =>
    simp only [cc2__softmax_pool_kernel_eq_skeleton]; unfold cc2__softmax_pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2
    obtain rfl := harg4.eq_unread hfs0; obtain rfl := harg5.eq_unread hfs1; obtain rfl := harg6.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

theorem scover2_B_0 : ∀ y, ∃ pc ∈ (kernelRun2_B c i arg1 harg1 arg2 harg2 arg3 harg3 arg4 harg4 arg5 harg5 arg6 harg6 hc0 hc1 x0 x1 xs0 xs1 xs2).2.1, y ∈ pc.1.set := View.cover_of_tiledL _ S1x1.size (by sl_kernel_rfl)
theorem scover2_B_1 : ∀ y, ∃ pc ∈ (kernelRun2_B c i arg1 harg1 arg2 harg2 arg3 harg3 arg4 harg4 arg5 harg5 arg6 harg6 hc0 hc1 x0 x1 xs0 xs1 xs2).2.2.1, y ∈ pc.1.set := View.cover_of_tiledL _ S1x1.size (by sl_kernel_rfl)
theorem scover2_B_2 : ∀ y, ∃ pc ∈ (kernelRun2_B c i arg1 harg1 arg2 harg2 arg3 harg3 arg4 harg4 arg5 harg5 arg6 harg6 hc0 hc1 x0 x1 xs0 xs1 xs2).2.2.2.1, y ∈ pc.1.set := View.cover_of_tiledL _ S1x128.size (by sl_kernel_rfl)
def outs2_B : Outs2 F :=
  (View.canon (kernelRun2_B c i arg1 harg1 arg2 harg2 arg3 harg3 arg4 harg4 arg5 harg5 arg6 harg6 hc0 hc1 x0 x1 xs0 xs1 xs2).1, View.canon (kernelRun2_B c i arg1 harg1 arg2 harg2 arg3 harg3 arg4 harg4 arg5 harg5 arg6 harg6 hc0 hc1 x0 x1 xs0 xs1 xs2).2.1, View.canon (kernelRun2_B c i arg1 harg1 arg2 harg2 arg3 harg3 arg4 harg4 arg5 harg5 arg6 harg6 hc0 hc1 x0 x1 xs0 xs1 xs2).2.2.1, View.canon (kernelRun2_B c i arg1 harg1 arg2 harg2 arg3 harg3 arg4 harg4 arg5 harg5 arg6 harg6 hc0 hc1 x0 x1 xs0 xs1 xs2).2.2.2.1)
end Middle

section Last
variable (hc1 : cond2_1 i) (x0 : Vec F S5000x1 .f32) (x1 : Vec F S5000x128 .f32) (xs0 : Vec F S1x1 .f32) (xs1 : Vec F S1x1 .f32) (xs2 : Vec F S1x128 .f32)

set_option maxHeartbeats 1000000 in
def kernelRun2_C :
    Σ' (L2 : List (View.Piece (Elt F) S1x128 .f32)) (LS0 : List (View.Piece (Elt F) S1x1 .f32)) (LS1 : List (View.Piece (Elt F) S1x1 .f32)), { LS2 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1 ∗ owns (c : Thread nD τ) arg6 fullShare xs2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1) ∗ (∃ f, arg6.view.loc (c : Thread nD τ) ↦[arg6.view.set]{fullShare} arg6.view.writes (Elt F) f LS2)) -∗ K ⟨⟩))
          ⊢ wp frame (wpE (defs₀ (F := F)) Variants.none c none) E (cc2__softmax_pool_kernel i arg1 harg1 arg2 harg2 arg3 harg3 arg4 harg4 arg5 harg5 arg6 harg6) K } := by
  refine ⟨?_, ?_, ?_, ?_, fun E K => ?run⟩
  case run =>
    simp only [cc2__softmax_pool_kernel_eq_skeleton]; unfold cc2__softmax_pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg1.eq_unread hf0; obtain rfl := harg2.eq_unread hf1
    obtain rfl := harg4.eq_unread hfs0; obtain rfl := harg5.eq_unread hfs1; obtain rfl := harg6.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [HS1]; · iexists _; iexact HS1
    iexists _; iexact HS2

theorem scover2_C_0 : ∀ y, ∃ pc ∈ (kernelRun2_C c i arg1 harg1 arg2 harg2 arg3 harg3 arg4 harg4 arg5 harg5 arg6 harg6 hc0 hc1 x0 x1 xs0 xs1 xs2).2.1, y ∈ pc.1.set := View.cover_of_tiledL _ S1x1.size (by sl_kernel_rfl)
theorem scover2_C_1 : ∀ y, ∃ pc ∈ (kernelRun2_C c i arg1 harg1 arg2 harg2 arg3 harg3 arg4 harg4 arg5 harg5 arg6 harg6 hc0 hc1 x0 x1 xs0 xs1 xs2).2.2.1, y ∈ pc.1.set := View.cover_of_tiledL _ S1x1.size (by sl_kernel_rfl)
theorem scover2_C_2 : ∀ y, ∃ pc ∈ (kernelRun2_C c i arg1 harg1 arg2 harg2 arg3 harg3 arg4 harg4 arg5 harg5 arg6 harg6 hc0 hc1 x0 x1 xs0 xs1 xs2).2.2.2.1, y ∈ pc.1.set := View.cover_of_tiledL _ S1x128.size (by sl_kernel_rfl)
theorem cover2_C_2 : ∀ y, ∃ pc ∈ (kernelRun2_C c i arg1 harg1 arg2 harg2 arg3 harg3 arg4 harg4 arg5 harg5 arg6 harg6 hc0 hc1 x0 x1 xs0 xs1 xs2).1, y ∈ pc.1.set := View.cover_of_tiledL _ S1x128.size (by sl_kernel_rfl)
def outs2_C : Outs2 F :=
  (View.canon (kernelRun2_C c i arg1 harg1 arg2 harg2 arg3 harg3 arg4 harg4 arg5 harg5 arg6 harg6 hc0 hc1 x0 x1 xs0 xs1 xs2).1, View.canon (kernelRun2_C c i arg1 harg1 arg2 harg2 arg3 harg3 arg4 harg4 arg5 harg5 arg6 harg6 hc0 hc1 x0 x1 xs0 xs1 xs2).2.1, View.canon (kernelRun2_C c i arg1 harg1 arg2 harg2 arg3 harg3 arg4 harg4 arg5 harg5 arg6 harg6 hc0 hc1 x0 x1 xs0 xs1 xs2).2.2.1, View.canon (kernelRun2_C c i arg1 harg1 arg2 harg2 arg3 harg3 arg4 harg4 arg5 harg5 arg6 harg6 hc0 hc1 x0 x1 xs0 xs1 xs2).2.2.2.1)
end Last

end Later

end Body

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- the output row and the running maximum, denominator and weighted sum after each point: that case's run on the point's tiles and on what the point before left
def at2_A (c : Dev nD) (t : Fin cfg2.N) (hz : t.val = 0) (hl : ¬t.val = 19) : Outs2 F :=
  outs2_A c (grid2.coords t) (ms2_0 t) (hs2_0 t) (ms2_1 t) (hs2_1 t) (ms2_2 t) (hs2_2 t) scM2_0 (Memref.isWhole_whole _) scM2_1 (Memref.isWhole_whole _) scM2_2 (Memref.isWhole_whole _) ((hcond2_0 t).mpr hz) (fun h => hl ((hcond2_1 t).mp h)) (iblk2 V c 0 t) (iblk2 V c 1 t)
def at2_B (c : Dev nD) (t : Fin cfg2.N) (hz : ¬t.val = 0) (hl : ¬t.val = 19) (s : Vec F S1x1 .f32 × Vec F S1x1 .f32 × Vec F S1x128 .f32) : Outs2 F :=
  outs2_B c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => hz ((hcond2_0 t).mp h)) (fun h => hl ((hcond2_1 t).mp h)) (iblk2 V c 0 t) (iblk2 V c 1 t) s.1 s.2.1 s.2.2
def at2_C (c : Dev nD) (t : Fin cfg2.N) (hz : ¬t.val = 0) (hl : t.val = 19) (s : Vec F S1x1 .f32 × Vec F S1x1 .f32 × Vec F S1x128 .f32) : Outs2 F :=
  outs2_C c (grid2.coords t) (ms2_0 t) (hs2_0 t) (ms2_1 t) (hs2_1 t) (ms2_2 t) (hs2_2 t) scM2_0 (Memref.isWhole_whole _) scM2_1 (Memref.isWhole_whole _) scM2_2 (Memref.isWhole_whole _) (fun h => hz ((hcond2_0 t).mp h)) ((hcond2_1 t).mpr hl) (iblk2 V c 0 t) (iblk2 V c 1 t) s.1 s.2.1 s.2.2

def outsAt2 (c : Dev nD) : (n : ℕ) → n < cfg2.N → Outs2 F
  | 0, hn => at2_A V c ⟨0, hn⟩ rfl (show ¬(0 : ℕ) = 19 by decide)
  | n + 1, hn =>
    if h1 : n + 1 = 19 then at2_C V c ⟨n + 1, hn⟩ (Nat.succ_ne_zero n) h1 (outsAt2 c n (Nat.lt_of_succ_lt hn)).2
    else at2_B V c ⟨n + 1, hn⟩ (Nat.succ_ne_zero n) h1 (outsAt2 c n (Nat.lt_of_succ_lt hn)).2

theorem outsAt2_A (c : Dev nD) (t : Fin cfg2.N) (hz : t.val = 0) (hl : ¬t.val = 19) :
    outsAt2 V c t.val t.isLt = at2_A V c t hz hl := by
  obtain ⟨n, hn⟩ := t
  cases n with
  | zero => exact rfl
  | succ n => exact absurd hz (Nat.succ_ne_zero n)

theorem outsAt2_B (c : Dev nD) (t : Fin cfg2.N) (hz : ¬t.val = 0) (hl : ¬t.val = 19) :
    outsAt2 V c t.val t.isLt = at2_B V c t hz hl (outsAt2 V c (t.val - 1) (Nat.lt_of_le_of_lt (Nat.sub_le _ _) t.isLt)).2 := by
  obtain ⟨n, hn⟩ := t
  cases n with
  | zero => exact absurd rfl hz
  | succ n => exact (dif_neg hl).trans rfl

theorem outsAt2_C (c : Dev nD) (t : Fin cfg2.N) (hz : ¬t.val = 0) (hl : t.val = 19) :
    outsAt2 V c t.val t.isLt = at2_C V c t hz hl (outsAt2 V c (t.val - 1) (Nat.lt_of_le_of_lt (Nat.sub_le _ _) t.isLt)).2 := by
  obtain ⟨n, hn⟩ := t
  cases n with
  | zero => exact absurd rfl hz
  | succ n => exact (dif_pos hl).trans rfl

-- the invariant: before the first point the entry state; afterwards the running maximum, denominator and weighted sum are what the point before left
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.1 ∗ owns (c : Thread nD τ) scM2_1 fullShare (outsAt2 V c n hn).2.2.1 ∗ owns (c : Thread nD τ) scM2_2 fullShare (outsAt2 V c n hn).2.2.2) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).2.1 ∗ owns (c : Thread nD τ) scM2_1 fullShare (outsAt2 V c n hn).2.2.1 ∗ owns (c : Thread nD τ) scM2_2 fullShare (outsAt2 V c n hn).2.2.2) ∗ others2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.1 ∗ owns (c : Thread nD τ) scM2_1 fullShare (outsAt2 V c (n - 1) (by omega)).2.2.1 ∗ owns (c : Thread nD τ) scM2_2 fullShare (outsAt2 V c (n - 1) (by omega)).2.2.2) ∗ others2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0
theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)
set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases hz : t.val = 0
  · have hl : ¬t.val = 19 := by omega
    rw [Dat.leavesExact_idle (dat2 V c) 2 t (idleAt2_2 t (fun h => hl ((hcond2_1 t).mp h))) (noFlush2_2 t (fun h => hl ((hcond2_1 t).mp h)))]
    rw [outsAt2_A V c t hz hl]
    unfold at2_A outs2_A; dsimp only
    rw [PhiS2_castSucc V c t, PhiS2_zero V c _ _ hz, PhiA2_eq]
    iintro ⟨⟨⟨⟨HS0, HS1, HS2⟩, Hoth⟩, Hg⟩, Ho, ⟨%d0, H0⟩, ⟨%d1, H1⟩, ⟨%d2, H2⟩⟩
    iapply ((kernelRun2_A c (grid2.coords t) _ _ _ _ _ _ _ _ _ _ _ _ ((hcond2_0 t).mpr hz) (fun h => hl ((hcond2_1 t).mp h)) (iblk2 V c 0 t) (iblk2 V c 1 t)).2.2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, ⟨%es0, HS0⟩, ⟨%es1, HS1⟩, ⟨%es2, HS2⟩⟩
    isplitl [HS0 HS1 HS2 Hoth Hg]
    · isplitr [Hg]
      · isplitr [Hoth]
        · isplitl [HS0]
          · unfold owns; iexists _; isplitr
            swap; · iexact HS0
            ipureintro; exact View.read_writes_eq_canon _ _ _ (scover2_A_0 c _ _ _ _ _ _ _ _ _ _ _ _ _ _ _ _ _)
          isplitl [HS1]
          · unfold owns; iexists _; isplitr
            swap; · iexact HS1
            ipureintro; exact View.read_writes_eq_canon _ _ _ (scover2_A_1 c _ _ _ _ _ _ _ _ _ _ _ _ _ _ _ _ _)
          unfold owns; iexists _; isplitr
          swap; · iexact HS2
          ipureintro; exact View.read_writes_eq_canon _ _ _ (scover2_A_2 c _ _ _ _ _ _ _ _ _ _ _ _ _ _ _ _ _)
        · iexact Hoth
      · iexact Hg
    isplitl [Ho]; · iexact Ho
    isplitl [H0]; · iexact H0
    isplitl [H1]; · iexact H1
    iexists _; iexact H2
  · by_cases hl : t.val = 19
    · rw [show (dat2 V c).leavesExact 2 t = owns (c : Thread nD τ) (ms2_2 t) fullShare ((dat2 V c).after 2 t) from by
        unfold Dat.leavesExact; rw [liveAt2_2 t ((hcond2_1 t).mpr hl)], after2_2]
      rw [outsAt2_C V c t hz hl]
      unfold at2_C outs2_C; dsimp only
      rw [PhiS2_castSucc V c t, PhiS2_pos V c _ _ hz]
      iintro ⟨⟨⟨⟨HS0, HS1, HS2⟩, Hoth⟩, Hg⟩, Ho, ⟨%d0, H0⟩, ⟨%d1, H1⟩, ⟨%d2, H2⟩⟩
      iapply ((kernelRun2_C c (grid2.coords t) _ _ _ _ _ _ _ _ _ _ _ _ (fun h => hz ((hcond2_0 t).mp h)) ((hcond2_1 t).mpr hl) (iblk2 V c 0 t) (iblk2 V c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 Hoth Hg]
      · isplitr [Hg]
        · isplitr [Hoth]
          · isplitl [HS0]
            · unfold owns; iexists _; isplitr
              swap; · iexact HS0
              ipureintro; exact View.read_writes_eq_canon _ _ _ (scover2_C_0 c _ _ _ _ _ _ _ _ _ _ _ _ _ _ _ _ _ _ _ _)
            isplitl [HS1]
            · unfold owns; iexists _; isplitr
              swap; · iexact HS1
              ipureintro; exact View.read_writes_eq_canon _ _ _ (scover2_C_1 c _ _ _ _ _ _ _ _ _ _ _ _ _ _ _ _ _ _ _ _)
            unfold owns; iexists _; isplitr
            swap; · iexact HS2
            ipureintro; exact View.read_writes_eq_canon _ _ _ (scover2_C_2 c _ _ _ _ _ _ _ _ _ _ _ _ _ _ _ _ _ _ _ _)
          · iexact Hoth
        · iexact Hg
      isplitl [Ho]; · iexact Ho
      isplitl [H0]; · iexact H0
      isplitl [H1]; · iexact H1
      unfold owns; iexists _; isplitr
      swap; · iexact H2
      ipureintro; exact View.read_writes_eq_canon _ _ _ (cover2_C_2 c _ _ _ _ _ _ _ _ _ _ _ _ _ _ _ _ _ _ _ _)
    · rw [Dat.leavesExact_idle (dat2 V c) 2 t (idleAt2_2 t (fun h => hl ((hcond2_1 t).mp h))) (noFlush2_2 t (fun h => hl ((hcond2_1 t).mp h)))]
      rw [outsAt2_B V c t hz hl]
      unfold at2_B outs2_B; dsimp only
      rw [PhiS2_castSucc V c t, PhiS2_pos V c _ _ hz]
      iintro ⟨⟨⟨⟨HS0, HS1, HS2⟩, Hoth⟩, Hg⟩, Ho, ⟨%d0, H0⟩, ⟨%d1, H1⟩, ⟨%d2, H2⟩⟩
      iapply ((kernelRun2_B c (grid2.coords t) _ _ _ _ _ _ _ _ _ _ _ _ (fun h => hz ((hcond2_0 t).mp h)) (fun h => hl ((hcond2_1 t).mp h)) (iblk2 V c 0 t) (iblk2 V c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2 Hoth Hg]
      · isplitr [Hg]
        · isplitr [Hoth]
          · isplitl [HS0]
            · unfold owns; iexists _; isplitr
              swap; · iexact HS0
              ipureintro; exact View.read_writes_eq_canon _ _ _ (scover2_B_0 c _ _ _ _ _ _ _ _ _ _ _ _ _ _ _ _ _ _ _ _)
            isplitl [HS1]
            · unfold owns; iexists _; isplitr
              swap; · iexact HS1
              ipureintro; exact View.read_writes_eq_canon _ _ _ (scover2_B_1 c _ _ _ _ _ _ _ _ _ _ _ _ _ _ _ _ _ _ _ _)
            unfold owns; iexists _; isplitr
            swap; · iexact HS2
            ipureintro; exact View.read_writes_eq_canon _ _ _ (scover2_B_2 c _ _ _ _ _ _ _ _ _ _ _ _ _ _ _ _ _ _ _ _)
          · iexact Hoth
        · iexact Hg
      isplitl [Ho]; · iexact Ho
      isplitl [H0]; · iexact H0
      isplitl [H1]; · iexact H1
      iexists _; iexact H2
theorem body_obligation2 (c : Dev nD) : BodyObligation (dat2 (F := F) V c) (defs₀ (F := F)) Variants.none () Set.univ := fun t => by
  rw [bigSep_W2, bigSep_W2]
  exact sound_body2 V c t
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, Hoth⟩, Hg⟩
  isplitl [HS0 HS1 HS2 Hoth]
  · isplitr [Hoth]
    · isplitl [HS0]; · iexists _; iexact HS0
      isplitl [HS1]; · iexists _; iexact HS1
      iexists _; iexact HS2
    · iexact Hoth
  · iexact Hg
theorem hout2 (c : Dev nD) : (dat2 V c).Φ (Fin.last cfg2.N) ⊢ Pipeline.ΦA spec2 c :=
  Phi_out2 V c _ (by rw [Fin.val_last]; have : cfg2.N = 20 := N_2; omega)
end Cert.KernelIdeal.Hand
end
-- ==== Proof.KI.Run.lean ====
import proofs.«409459_j15066745274947_3_alg».proof.Proof.KI.Reg0
import proofs.«409459_j15066745274947_3_alg».proof.Proof.KI.Reg1
import proofs.«409459_j15066745274947_3_alg».proof.Proof.KI.Reg2
import proofs.«409459_j15066745274947_3_alg».proof.Proof.Gen.KernelIdeal.Regions
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev U0 : Dev nD → Valuation τ sig (Elt F) := fun c b => m (c, b)
abbrev U1 : Dev nD → Valuation τ sig (Elt F) := fun c => StableHlo.after hostOps0 (U0 m c)
abbrev T1 : (c : Dev nD) → (b : Ref sig .tc) → Buf (Elt F) ((c : Thread nD τ).loc b) := fun c b => U1 m c b
theorem U1_keep (c : Dev nD) (r : Ref sig .tc) (h : r ∉ hostOps0_W) :
    U1 m c (Proc.devRef .tc r) = U0 m c (Proc.devRef .tc r) :=
  StableHlo.after_of_writes_sub hostOps0 _ hostOps0_writes h
def U2 (c : Dev nD) : Valuation τ sig (Elt F) :=
  Pipeline.withArrays spec0 c (U1 m c) fun w => (dat0 (T1 m) c).arrAt w cfg0.N
theorem U2_arr (c : Dev nD) (w : Fin cfg0.W) :
    U2 m c (Proc.devRef .tc (Pipeline.arrRef spec0 w)) = (dat0 (T1 m) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
abbrev T2 : (c : Dev nD) → (b : Ref sig .tc) → Buf (Elt F) ((c : Thread nD τ).loc b) := fun c b => U2 m c b
theorem leaves0 (c : Dev nD) (w : Fin cfg0.W) : (dat0 (T1 m) c).arrAt w cfg0.N = T2 m c (Pipeline.arrRef spec0 w) :=
  (U2_arr m c w).symm
theorem keeps0 (c : Dev nD) : ∀ b, b ∉ Finset.univ.image (Pipeline.arrRef spec0) → T2 m c b = T1 m c b :=
  fun b hb => U2_of_ne m c b fun w e => hb (Finset.mem_image.mpr ⟨w, Finset.mem_univ _, e⟩)
abbrev U3 : Dev nD → Valuation τ sig (Elt F) := fun c => StableHlo.after hostOps1 (U2 m c)
abbrev T3 : (c : Dev nD) → (b : Ref sig .tc) → Buf (Elt F) ((c : Thread nD τ).loc b) := fun c b => U3 m c b
theorem U3_keep (c : Dev nD) (r : Ref sig .tc) (h : r ∉ hostOps1_W) :
    U3 m c (Proc.devRef .tc r) = U2 m c (Proc.devRef .tc r) :=
  StableHlo.after_of_writes_sub hostOps1 _ hostOps1_writes h
def U4 (c : Dev nD) : Valuation τ sig (Elt F) :=
  Pipeline.withArrays spec1 c (U3 m c) fun w => (dat1 (T3 m) c).arrAt w cfg1.N
theorem U4_arr (c : Dev nD) (w : Fin cfg1.W) :
    U4 m c (Proc.devRef .tc (Pipeline.arrRef spec1 w)) = (dat1 (T3 m) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m c (Proc.devRef .tc b) = U3 m c (Proc.devRef .tc b) := by
  unfold U4; exact Pipeline.withArrays_of_ne spec1 c _ _ b hb
abbrev T4 : (c : Dev nD) → (b : Ref sig .tc) → Buf (Elt F) ((c : Thread nD τ).loc b) := fun c b => U4 m c b
theorem leaves1 (c : Dev nD) (w : Fin cfg1.W) : (dat1 (T3 m) c).arrAt w cfg1.N = T4 m c (Pipeline.arrRef spec1 w) :=
  (U4_arr m c w).symm
theorem keeps1 (c : Dev nD) : ∀ b, b ∉ Finset.univ.image (Pipeline.arrRef spec1) → T4 m c b = T3 m c b :=
  fun b hb => U4_of_ne m c b fun w e => hb (Finset.mem_image.mpr ⟨w, Finset.mem_univ _, e⟩)
abbrev U5 : Dev nD → Valuation τ sig (Elt F) := fun c => StableHlo.after hostOps2 (U4 m c)
abbrev T5 : (c : Dev nD) → (b : Ref sig .tc) → Buf (Elt F) ((c : Thread nD τ).loc b) := fun c b => U5 m c b
theorem U5_keep (c : Dev nD) (r : Ref sig .tc) (h : r ∉ hostOps2_W) :
    U5 m c (Proc.devRef .tc r) = U4 m c (Proc.devRef .tc r) :=
  StableHlo.after_of_writes_sub hostOps2 _ hostOps2_writes h
def U6 (c : Dev nD) : Valuation τ sig (Elt F) :=
  Pipeline.withArrays spec2 c (U5 m c) fun w => (dat2 (T5 m) c).arrAt w cfg2.N
theorem U6_arr (c : Dev nD) (w : Fin cfg2.W) :
    U6 m c (Proc.devRef .tc (Pipeline.arrRef spec2 w)) = (dat2 (T5 m) c).arrAt w cfg2.N := by
  unfold U6; exact Pipeline.withArrays_arr spec2 launch2.win.arr_inj c _ _ w
theorem U6_of_ne (c : Dev nD) (b : Ref sig .tc) (hb : ∀ w, Pipeline.arrRef spec2 w ≠ b) :
    U6 m c (Proc.devRef .tc b) = U5 m c (Proc.devRef .tc b) := by
  unfold U6; exact Pipeline.withArrays_of_ne spec2 c _ _ b hb
abbrev T6 : (c : Dev nD) → (b : Ref sig .tc) → Buf (Elt F) ((c : Thread nD τ).loc b) := fun c b => U6 m c b
theorem leaves2 (c : Dev nD) (w : Fin cfg2.W) : (dat2 (T5 m) c).arrAt w cfg2.N = T6 m c (Pipeline.arrRef spec2 w) :=
  (U6_arr m c w).symm
theorem keeps2 (c : Dev nD) : ∀ b, b ∉ Finset.univ.image (Pipeline.arrRef spec2) → T6 m c b = T5 m c b :=
  fun b hb => U6_of_ne m c b fun w e => hb (Finset.mem_image.mpr ⟨w, Finset.mem_univ _, e⟩)
theorem U6_main_arg0 (c : Dev nD) : U6 m c (Proc.devRef .tc main_arg0) = m ((c : Thread nD τ).loc main_arg0) :=
  calc U6 m c (Proc.devRef .tc main_arg0)
    _ = U5 m c (Proc.devRef .tc main_arg0) := (U6_arr m c 1).trans (((dat2 (T5 m) c).arrAt_in 1 rfl _).trans (A_eq2 (T5 m) c 1))
    _ = U4 m c (Proc.devRef .tc main_arg0) := U5_keep m c main_arg0 (by decide)
    _ = U3 m c (Proc.devRef .tc main_arg0) := (U4_arr m c 1).trans (((dat1 (T3 m) c).arrAt_in 1 rfl _).trans (A_eq1 (T3 m) c 1))
    _ = U2 m c (Proc.devRef .tc main_arg0) := U3_keep m c main_arg0 (by decide)
    _ = U1 m c (Proc.devRef .tc main_arg0) := (U2_arr m c 0).trans (((dat0 (T1 m) c).arrAt_in 0 rfl _).trans (A_eq0 (T1 m) c 0))
    _ = U0 m c (Proc.devRef .tc main_arg0) := U1_keep m c main_arg0 (by decide)
    _ = m ((c : Thread nD τ).loc main_arg0) := rfl
-- an array that no host stretch writes and that the first and last regions do not touch ends as launched
theorem U6_keep (c : Dev nD) (r : Ref sig .tc) (s1 : U4 m c (Proc.devRef .tc r) = U3 m c (Proc.devRef .tc r))
    (h0 : r ∉ hostOps0_W := by decide) (h1 : r ∉ hostOps1_W := by decide) (h2 : r ∉ hostOps2_W := by decide)
    (e0 : ∀ w, Pipeline.arrRef spec0 w ≠ r := by decide) (e2 : ∀ w, Pipeline.arrRef spec2 w ≠ r := by decide) :
    U6 m c (Proc.devRef .tc r) = m ((c : Thread nD τ).loc r) :=
  (U6_of_ne m c r e2).trans ((U5_keep m c r h2).trans (s1.trans ((U3_keep m c r h1).trans ((U2_of_ne m c r e0).trans (U1_keep m c r h0)))))
theorem U6_result (c : Dev nD) : U6 m c (Proc.devRef .tc main_v36) = (dat2 (T5 m) c).arrAt 2 cfg2.N := U6_arr m c 2
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
abbrev Lk : GSem nD τ sig → Finset Unit := fun _ => ∅
abbrev lvk : GSem nD τ sig → Unit → ℕ := fun _ _ => 0
abbrev Rk (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (U6 m c) ∗ ∃ r, prngReg c r)
set_option backward.isDefEq.respectTransparency.types false in
def reg0 : Pipeline.RegionSeg (pcfgs (F := F)) adm (pdats m) () defs₀ Variants.none Lk lvk 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Lk lvk 0 fun _ _ => rfl
  pre c := iprop(StableHlo.held (c : Thread nD τ) (Pipeline.ucRefs τ sig) (U1 m c) ∗ Rk c)
  post c := iprop(StableHlo.held (c : Thread nD τ) (Pipeline.ucRefs τ sig) (U2 m c) ∗ Rk c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (leaves0 m c) (keeps0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m) () defs₀ Variants.none Lk lvk 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ Lk lvk 1 fun _ _ => rfl
  pre c := iprop(StableHlo.held (c : Thread nD τ) (Pipeline.ucRefs τ sig) (U3 m c) ∗ Rk c)
  post c := iprop(StableHlo.held (c : Thread nD τ) (Pipeline.ucRefs τ sig) (U4 m c) ∗ Rk c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (leaves1 m c) (keeps1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg2 : Pipeline.RegionSeg (pcfgs (F := F)) adm (pdats m) () defs₀ Variants.none Lk lvk 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ Lk lvk 2 fun _ _ => rfl
  pre c := iprop(StableHlo.held (c : Thread nD τ) (Pipeline.ucRefs τ sig) (U5 m c) ∗ Rk c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (T5 m) c).Φ 0 from rfl]
    have hΦ : iprop((∃ r, prngReg c r) ∗ Pipeline.prefHeld (pcfgs (F := F) 2).pre c (fun _ => fullShare) (adm (F := F) 2).1
          ∗ Pipeline.scopedRest (Pipeline.pin (pcfgs (F := F)) adm 2).spec c) ⊢ (Pipeline.ΦA spec2 c : sProp 𝕄) := by
      unfold Pipeline.ΦA
      iintro ⟨Hp, -, Hr⟩
      isplitl [Hr]; · iexact Hr
      iexact Hp
    exact hΦ.trans (hin2 (T5 m) c)
  hout c := by
    rw [Pipeline.ownSems0_none, show (pdats m 2 c).Φ (Fin.last _) = (dat2 (T5 m) c).Φ (Fin.last cfg2.N) from rfl]
    have hΦ : (Pipeline.ΦA spec2 c : sProp 𝕄) ⊢ iprop((∃ r, prngReg c r) ∗ BI.emp
          ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (hout2 (T5 m) c).trans hΦ
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (leaves2 m c) (keeps2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO
abbrev items : List (Pipeline.Seg (pcfgs (F := F)) adm (pdats m) () defs₀ Variants.none Lk lvk) :=
  [ .host (hostItem hostOps0 hostOps0_sub hostOps0_fresh (U0 m)),
    .region (reg0 m),
    .host (hostItem hostOps1 hostOps1_sub hostOps1_fresh (U2 m)),
    .region (reg1 m),
    .host (hostItem hostOps2 hostOps2_sub hostOps2_fresh (U4 m)),
    .region (reg2 m) ]
theorem main_items (c : Dev nD) : main (F := F) c = Pipeline.Seg.run (items m) := (main_chain c).trans (by chain_rfl)
set_option backward.isDefEq.respectTransparency.types false in
theorem run_main : θ_run defs (onTc (τ := τ) (main (F := F))) ⟨m, fun _ => 0, ρ⟩ (fun r => ∀ c : Dev nD,
      r.2.mem ((c.tc : Thread nD τ).loc main_v36) = U6 m c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ Variants.none Lk lvk m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rk c)) (Tₙ := Tlast m)
    (hch := ⟨fun _ => .rfl, fun _ => .rfl, fun _ => .rfl, fun _ => .rfl, fun _ => .rfl, fun _ => .rfl, fun _ => .rfl⟩)
    (hinit := by
      refine Pipeline.initEach Lk lvk fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun s h c =>
      ⟨h c _ (mem_ucRefs main_v36 (by decide)),
       (h c _ (mem_ucRefs main_arg0 (by decide))).trans (U6_main_arg0 m c),
       (h c _ (mem_ucRefs main_arg1 (by decide))).trans (U6_keep m c main_arg1 (U4_of_ne m c main_arg1 (by decide))),
       (h c _ (mem_ucRefs main_arg2 (by decide))).trans (U6_keep m c main_arg2 (U4_of_ne m c main_arg2 (by decide))),
       (h c _ (mem_ucRefs main_arg3 (by decide))).trans (U6_keep m c main_arg3 (U4_of_ne m c main_arg3 (by decide))),
       (h c _ (mem_ucRefs main_arg4 (by decide))).trans (U6_keep m c main_arg4 (U4_of_ne m c main_arg4 (by decide))),
       (h c _ (mem_ucRefs main_arg5 (by decide))).trans (U6_keep m c main_arg5 ((U4_arr m c 4).trans (((dat1 (T3 m) c).arrAt_in 4 rfl _).trans (A_eq1 (T3 m) c 4)))),
       (h c _ (mem_ucRefs main_arg6 (by decide))).trans (U6_keep m c main_arg6 (U4_of_ne m c main_arg6 (by decide))),
       (h c _ (mem_ucRefs main_arg7 (by decide))).trans (U6_keep m c main_arg7 ((U4_arr m c 5).trans (((dat1 (T3 m) c).arrAt_in 5 rfl _).trans (A_eq1 (T3 m) c 5))))⟩)
end Cert.KernelIdeal.Hand
end
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

theorem mul_coe (a b : ℝ) : (a : EReal) * (b : EReal) = ((a * b : ℝ) : EReal) := (EReal.coe_mul a b).symm

theorem add_coe (a b : ℝ) : (a : EReal) + (b : EReal) = ((a + b : ℝ) : EReal) := (EReal.coe_add a b).symm

theorem sub_coe (a b : ℝ) : (a : EReal) - (b : EReal) = ((a - b : ℝ) : EReal) := (EReal.coe_sub a b).symm

-- The coercion is monotone, so it commutes with the maximum.
theorem max_coe (a b : ℝ) : max (a : EReal) (b : EReal) = ((max a b : ℝ) : EReal) :=
  (EReal.coe_strictMono.monotone.map_max (a := a) (b := b)).symm

theorem exp_coe (a : ℝ) : Ideal.exp (a : EReal) = ((Real.exp a : ℝ) : EReal) := rfl

theorem div_coe (a : ℝ) {b : ℝ} (h : b ≠ 0) : Ideal.div (a : EReal) (b : EReal) = ((a / b : ℝ) : EReal) := by
  rw [Ideal.div_coe h, mul_coe, mul_one_div]

theorem ofBits_zero : Ideal.ofBits .f32 0x00000000#32 = 0 := Ideal.ofBits_zero_f32

theorem ofBits_zero_coe : Ideal.ofBits .f32 0x00000000#32 = ((0 : ℝ) : EReal) := ofBits_zero

theorem ofBits_neg_inf : Ideal.ofBits .f32 0xFF800000#32 = ⊥ := by
  simp [Ideal.ofBits, Ideal.ieee]

-- By induction on the index set, the coercion being additive.
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  classical
  rw [Finset.sum_congr rfl hg]
  exact Finset.induction_on s rfl fun i s hi ih => by
    rw [Finset.sum_insert hi, Finset.sum_insert hi, ih, EReal.coe_add]

-- A fold of the maximum from the bottom element is a supremum, and the coercion commutes with binary maxima.
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  obtain rfl : g = fun i => ((f i : ℝ) : EReal) := funext hg
  show s.sup _ = _
  rw [← Finset.sup'_eq_sup H]
  exact (Finset.comp_sup'_eq_sup'_comp H (fun r : ℝ => (r : EReal)) fun x y => (max_coe x y).symm).symm

theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.LibPlainDot.lean ====
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx
open scoped BigOperators

variable {A K B : Nat}

-- A record of dimension numbers is its six lists of axes.
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

-- Both sides are the plain product of `f` and `g` read at `(p, q)`.
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) :=
  (Ideal.dotGeneral_apply (φ₁ := .f32) (φ₂ := .f32) _ none _ f g _).symm.trans
    (StackMember.dotGeneral_plain_apply none f g p q)

theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.KI.Val0.lean ====
import proofs.«409459_j15066745274947_3_alg».proof.Proof.Gen.KernelIdeal.Launch
import proofs.«409459_j15066745274947_3_alg».proof.Proof.Gen.KernelIdeal.Skeleton
import proofs.«409459_j15066745274947_3_alg».proof.Proof.Gen.KernelIdeal.Points
import proofs.«409459_j15066745274947_3_alg».proof.Proof.KI.Reg0
import proofs.«409459_j15066745274947_3_alg».proof.Proof.LibIdealReal
import proofs.«409459_j15066745274947_3_alg».proof.Proof.LibPlainDot
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open scoped BigOperators

variable (V : (c : Dev nD) → (b : Ref sig .tc) → Buf (Elt Ideal) ((c : Thread nD τ).loc b))

-- format changes and the same-shape cast are the identity at the ideal values; the product accumulates from zero
theorem pay0_apply (x : Vec Ideal S10000x128 .f32) (w : Vec Ideal S128x64 .f32) (p : Fin 10000) (q : Fin 64) :
    k0_pay1 (F := Ideal) x w (ix2 p q) = ∑ k : Fin 128, x (ix2 p k) * w (ix2 k q) := by
  unfold k0_pay1
  rw [truncf_apply, Cert.LibPlainDot.eq_plain dot_S10000x128_S128x64_S10000x64_1_0_0_1_n_n rfl rfl rfl rfl rfl rfl]
  refine (Ideal.matmul_constant_zero_apply (DotDims.plain 10000 128 64) none _ _ (ix2 p q)).trans ?_
  refine (Cert.LibPlainDot.plain_sum _ _ p q).trans (Finset.sum_congr rfl fun k _ => ?_)
  rw [truncf_apply, truncf_apply, shapeCast_self]

def prod0 (a0 : S100000x128.Idx → EReal) (a1 : S128x64.Idx → EReal) : S100000x64.Idx → EReal :=
  fun i => ∑ k : Fin 128, a0 (ix2 (i 0) k) * a1 (ix2 k (i 1))

theorem prod0_apply (a0 : S100000x128.Idx → EReal) (a1 : S128x64.Idx → EReal) (u : Fin 100000) (l : Fin 64) :
    prod0 a0 a1 (ix2 u l) = ∑ k : Fin 128, a0 (ix2 u k) * a1 (ix2 k l) := rfl

theorem hz0 : (![0, 0] : Fin 2 → Nat) = fun _ => 0 := funext (Fin.forall_fin_two.2 ⟨rfl, rfl⟩)

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- entry (p, q) of the block product at point t is entry (10000·t + p, q) of the product of the whole arrays
theorem flushed0_2_eq (c : Dev nD) (t : Fin cfg0.N) :
    (dat0 V c).flushed 2 t
      = ((cfg0.win 2).blk t).view.read (Elt Ideal) (prod0 (V c main_arg0) (V c main_v4)) := by
  obtain ⟨a0, a1, b0, b1, c0, c1⟩ := idx_facts0 t
  show (cfg0.win 2).cut (grid0.coords t) ((dat0 V c).after 2 t) = _
  rw [after0_2]
  unfold out0_2
  rw [View.canon_unit_zero hz0]
  simp only [View.ld_unit_zero (S := S10000x128) hz0, View.ld_unit_zero (S := S128x64) hz0]
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = prod0 (V c main_arg0) (V c main_v4) (((cfg0.win 2).blk t).view.emb (ix2 p q))
  rw [pay0_apply]
  refine Finset.sum_congr rfl fun k _ => congrArg₂ (· * ·) ?_ ?_
  · show (V c main_arg0 : S100000x128.Idx → EReal) (((cfg0.win 0).blk t).view.emb (ix2 p k)) = _
    refine congrArg _ (Shape.idx_ext₂ ?_ ?_)
    · show win0_0.index t (0 : Fin 2) * 10000 + 1 * p.val = win0_2.index t (0 : Fin 2) * 10000 + 1 * p.val; omega
    · show win0_0.index t (1 : Fin 2) * 128 + 1 * k.val = k.val; omega
  · show (V c main_v4 : S128x64.Idx → EReal) (((cfg0.win 1).blk t).view.emb (ix2 k q)) = _
    refine congrArg _ (Shape.idx_ext₂ ?_ ?_)
    · show win0_1.index t (0 : Fin 2) * 128 + 1 * k.val = k.val; omega
    · show win0_1.index t (1 : Fin 2) * 64 + 1 * q.val = win0_2.index t (1 : Fin 2) * 64 + 1 * q.val; omega

-- row r lies in the block of point r / 10000
theorem cover0_2_arr (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  obtain ⟨t, ht⟩ : ∃ t : Fin cfg0.N, t.val = (i 0).val / 10000 := ⟨⟨_, by have : cfg0.N = 10 := N_0; omega⟩, rfl⟩
  obtain ⟨-, -, -, -, e0, e1⟩ := idx_facts0 t
  refine ⟨t, flush0_2 t, ?_⟩
  show i ∈ ((View.whole main_v5).slice (win0_2.rect t)).set
  rw [View.set_slice_whole, Rect.mem_set_unit]
  refine Fin.forall_fin_two.2 ⟨?_, ?_⟩
  · show win0_2.index t (0 : Fin 2) * 10000 ≤ (i 0).val ∧ (i 0).val < win0_2.index t (0 : Fin 2) * 10000 + 10000; omega
  · show win0_2.index t (1 : Fin 2) * 64 ≤ (i 1).val ∧ (i 1).val < win0_2.index t (1 : Fin 2) * 64 + 64; omega

theorem final0 (c : Dev nD) :
    (dat0 V c).arrAt 2 cfg0.N = prod0 (V c main_arg0) (V c main_v4) :=
  (dat0 V c).arrAt_eq_of_cover 2 _ (fun t _ => flushed0_2_eq V c t) cover0_2_arr

theorem final0_real (c : Dev nD) (X : Fin 100000 → Fin 128 → ℝ) (W : Fin 128 → Fin 64 → ℝ)
    (hx : ∀ p q, (V c main_arg0 : S100000x128.Idx → EReal) (ix2 p q) = ((X p q : ℝ) : EReal))
    (hw : ∀ k l, (V c main_v4 : S128x64.Idx → EReal) (ix2 k l) = ((W k l : ℝ) : EReal))
    (u : Fin 100000) (l : Fin 64) :
    ((dat0 V c).arrAt 2 cfg0.N : S100000x64.Idx → EReal) (ix2 u l) = ((∑ k, X u k * W k l : ℝ) : EReal) := by
  rw [final0 V c, prod0_apply]
  refine Cert.LibIdealReal.sum_of_eq Finset.univ _ (fun k => X u k * W k l) fun k _ => ?_
  rw [hx, hw, Cert.LibIdealReal.mul_coe]

end Cert.KernelIdeal.Hand

end
-- ==== Proof.LibColumn.lean ====
import Idealize.ShloMosaic.Lib.ValueIdx
import Idealize.ShloMosaic.Lib.Pipeline.Value

namespace Cert.LibColumn

open Idealize.ShloMosaic Idealize.ShloMosaic.ValueIdx

variable {α : Type}

-- Both indices have the same row-major position, the trailing coordinate being zero.
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

-- The row coordinate is kept (it is below `a`, so `a = 1` forces it to zero) and the unit axis reads its only entry.
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split <;> omega
  | ⟨1, _⟩ => rfl

end Cert.LibColumn
-- ==== Proof.Spec.lean ====
import Mathlib.Analysis.SpecialFunctions.Exp
import Mathlib.Algebra.BigOperators.Group.Finset.Basic
import Mathlib.Order.Fin.Basic
import Mathlib.Data.Finset.Lattice.Fold

noncomputable section

namespace Cert.Spec

open Finset

-- Real inputs: features, weights, biases and slope; edge `e` reads node `row e` and adds into every node `u` with `hit e u`.
structure Inp where
  X : Fin 100000 → Fin 128 → ℝ
  A1 : Fin 64 → Fin 128 → ℝ
  B1 : Fin 64 → ℝ
  A4 : Fin 64 → Fin 128 → ℝ
  A5 : Fin 64 → ℝ
  B2 : ℝ
  A7 : Fin 64 → ℝ
  κ : ℝ
  row : Fin 1600000 → Fin 100000
  hit : Fin 1600000 → Fin 100000 → Prop
  dhit : ∀ e u, Decidable (hit e u)

attribute [instance] Inp.dhit

variable (I : Inp)

def leaky (κ v : ℝ) : ℝ := if 0 ≤ v then v else κ * v

def agg {α : Type*} [AddCommMonoid α] (f : Fin 100000 → α) (u : Fin 100000) : α :=
  ∑ e ∈ univ.filter (fun e => I.hit e u), f (I.row e)

namespace Ref

def agg1 (u : Fin 100000) (d : Fin 128) : ℝ := agg I (fun v => I.X v d) u
def pre1 (u : Fin 100000) (l : Fin 64) : ℝ := ((∑ d, agg1 I u d * I.A1 l d) + I.B1 l) + ∑ d, I.X u d * I.A4 l d
def h (u : Fin 100000) (l : Fin 64) : ℝ := leaky I.κ (pre1 I u l)
def agg2 (u : Fin 100000) (l : Fin 64) : ℝ := agg I (fun v => h I v l) u
def s (u : Fin 100000) : ℝ := ((∑ l, agg2 I u l * I.A5 l) + I.B2) + ∑ l, h I u l * I.A7 l

end Ref

namespace Ker

def xr (u : Fin 100000) (l : Fin 64) : ℝ := ∑ d, I.X u d * I.A1 l d
def agg1 (u : Fin 100000) (l : Fin 64) : ℝ := agg I (fun v => xr I v l) u
def pre1 (u : Fin 100000) (l : Fin 64) : ℝ := (agg1 I u l + ∑ d, I.X u d * I.A4 l d) + I.B1 l
def h (u : Fin 100000) (l : Fin 64) : ℝ := leaky I.κ (pre1 I u l)
def grel (u : Fin 100000) : ℝ := ∑ l, h I u l * I.A5 l
def groot (u : Fin 100000) : ℝ := ∑ l, h I u l * I.A7 l
def agg2 (u : Fin 100000) : ℝ := agg I (fun v => grel I v) u
def s (u : Fin 100000) : ℝ := (agg2 I u + groot I u) + I.B2

end Ker

def smax (s : Fin 100000 → ℝ) : ℝ := univ.sup' ⟨(0 : Fin 100000), mem_univ _⟩ s

def sden (s : Fin 100000 → ℝ) : ℝ := ∑ u, Real.exp (s u - smax s)

def pool (s : Fin 100000 → ℝ) (X : Fin 100000 → Fin 128 → ℝ) (d : Fin 128) : ℝ :=
  ∑ u, (Real.exp (s u - smax s) / sden s) * X u d

def poolK (s : Fin 100000 → ℝ) (X : Fin 100000 → Fin 128 → ℝ) (d : Fin 128) : ℝ :=
  (∑ u, Real.exp (s u - smax s) * X u d) / sden s

def refOut (d : Fin 128) : ℝ := pool (Ref.s I) I.X d
def kerOut (d : Fin 128) : ℝ := poolK (Ker.s I) I.X d

end Cert.Spec

end
-- ==== Proof.KI.Val1.lean ====
import proofs.«409459_j15066745274947_3_alg».proof.Proof.Gen.KernelIdeal.Launch
import proofs.«409459_j15066745274947_3_alg».proof.Proof.Gen.KernelIdeal.Skeleton
import proofs.«409459_j15066745274947_3_alg».proof.Proof.Gen.KernelIdeal.Points
import proofs.«409459_j15066745274947_3_alg».proof.Proof.KI.Reg1
import proofs.«409459_j15066745274947_3_alg».proof.Proof.LibIdealReal
import proofs.«409459_j15066745274947_3_alg».proof.Proof.LibPlainDot
import proofs.«409459_j15066745274947_3_alg».proof.Proof.LibColumn
import proofs.«409459_j15066745274947_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.LibIdealReal
open scoped BigOperators

variable (V : (c : Dev nD) → (b : Ref sig .tc) → Buf (Elt Ideal) ((c : Thread nD τ).loc b))

theorem laneSum_apply (src : FVec Ideal S5000x64 .f32) (p : Fin 5000) :
    multiReduction (F := Ideal) .add [1] S5000 src 0x00000000#32 reduces_S5000x64_S5000 (.inl rfl) rfl (ix1 p)
      = ∑ l : Fin 64, src (ix2 p l) :=
  (Ideal.multiReduction_add_single src 0x00000000#32 reduces_S5000x64_S5000 (.inl rfl) rfl (ix1 p)).trans
    (Finset.sum_congr rfl fun l _ => congrArg src (Shape.idx_ext₂ rfl rfl))

theorem gateDot_apply (lhs : FVec Ideal S5000x128 .bf16) (rhs : FVec Ideal S128x64 .bf16) (p : Fin 5000) (l : Fin 64) :
    matmul dot_S5000x128_S128x64_S5000x64_1_0_0_1_n_n none lhs rhs (constant (F := Ideal) S5000x64 .f32 0x00000000#32) (ix2 p l)
      = ∑ k : Fin 128, lhs (ix2 p k) * rhs (ix2 k l) := by
  refine (Ideal.matmul_constant_zero_apply dot_S5000x128_S128x64_S5000x64_1_0_0_1_n_n none lhs rhs (ix2 p l)).trans ?_
  rw [Cert.LibPlainDot.eq_plain dot_S5000x128_S128x64_S5000x64_1_0_0_1_n_n rfl rfl rfl rfl rfl rfl]
  exact Cert.LibPlainDot.plain_sum lhs rhs p l

/-- Hidden unit `l` of a node before the rectifier, from the node's row `a` of the aggregate and row `x` of the features. -/
def preE (a : Fin 64 → EReal) (x : Fin 128 → EReal) (W : S128x64.Idx → EReal) (b : S1x64.Idx → EReal) (l : Fin 64) : EReal :=
  (a l + ∑ k : Fin 128, x k * W (ix2 k l)) + b (ix2 (0 : Fin 1) l)

/-- The leaky rectifier as the body computes it: a select on "at least zero". -/
def hidE (r : EReal) : EReal :=
  Scalar.select (Ideal.cmp .oge r (Ideal.ofBits .f32 0x00000000#32)) r (Ideal.ofBits .f32 0x3E4CCCCD#32 * r)

/-- A node's gate against one weight row. -/
def gateE (a : Fin 64 → EReal) (x : Fin 128 → EReal) (W : S128x64.Idx → EReal) (b w : S1x64.Idx → EReal) : EReal :=
  ∑ l : Fin 64, hidE (preE a x W b l) * w (ix2 (0 : Fin 1) l)

theorem pre_apply (x0 : Vec Ideal S5000x64 .f32) (x1 : Vec Ideal S5000x128 .f32) (x2 : Vec Ideal S128x64 .f32)
    (x3 : Vec Ideal S1x64 .f32) (p : Fin 5000) (l : Fin 64) :
    (addf (addf (shapeCast S5000x64 x0 shapeCasts_S5000x64_S5000x64)
          (matmul dot_S5000x128_S128x64_S5000x64_1_0_0_1_n_n none (truncf .bf16 x1 bitsLt_bf16_f32)
            (truncf .bf16 (shapeCast S128x64 x2 shapeCasts_S128x64_S128x64) bitsLt_bf16_f32) (constant (F := Ideal) S5000x64 .f32 0x00000000#32)))
          (broadcastTo S5000x64 (shapeCast S1x64 x3 shapeCasts_S1x64_S1x64) broadcasts_S1x64_S5000x64) : FVec Ideal S5000x64 .f32) (ix2 p l)
      = preE (fun l => x0 (ix2 p l)) (fun k => x1 (ix2 p k)) x2 x3 l := by
  rw [addf_apply, addf_apply, shapeCast_self, shapeCast_self, shapeCast_self, gateDot_apply]
  exact congrArg₂ (· + ·) rfl (broadcastTo_1b_ab_apply x3 broadcasts_S1x64_S5000x64 p l)

theorem rectify_apply (v : FVec Ideal S5000x64 .f32) (p : Fin 5000) (l : Fin 64) (r : EReal) (hv : v (ix2 p l) = r) :
    (select (cmpf (F := Ideal) .oge v (broadcast S5000x64 (Scalar.ofBits (F := Ideal) .f32 0x00000000#32))) v
        (mulf (broadcast S5000x64 (Scalar.ofBits (F := Ideal) .f32 0x3E4CCCCD#32)) v) : FVec Ideal S5000x64 .f32) (ix2 p l)
      = hidE r := by
  subst hv
  rfl

theorem column_apply (hb : FVec Ideal S5000x64 .f32) (w : Vec Ideal S1x64 .f32) (p : Fin 5000) (g : Fin 64 → EReal)
    (hg : ∀ l, hb (ix2 p l) = g l) :
    (shapeCast S5000x1 (multiReduction (F := Ideal) .add [1] S5000 (mulf hb (broadcastTo S5000x64 w broadcasts_S1x64_S5000x64))
        0x00000000#32 reduces_S5000x64_S5000 (.inl rfl) rfl) shapeCasts_S5000_S5000x1 : FVec Ideal S5000x1 .f32) (ix2 p (0 : Fin 1))
      = ∑ l : Fin 64, g l * w (ix2 (0 : Fin 1) l) := by
  refine (Cert.LibColumn.shapeCast_a_a1_apply _ shapeCasts_S5000_S5000x1 p (0 : Fin 1)).trans ?_
  refine (laneSum_apply _ p).trans (Finset.sum_congr rfl fun l _ => ?_)
  rw [mulf_apply, hg l]
  exact congrArg (g l * ·) (broadcastTo_1b_ab_apply w broadcasts_S1x64_S5000x64 p l)

-- column 0 is the gate against the fifth block, column 1 against the sixth
theorem pay1_apply (x0 : Vec Ideal S5000x64 .f32) (x1 : Vec Ideal S5000x128 .f32) (x2 : Vec Ideal S128x64 .f32)
    (x3 x4 x5 : Vec Ideal S1x64 .f32) (p : Fin 5000) (q : Fin 2) :
    k1_pay1 x0 x1 x2 x3 x4 x5 (ix2 p q)
      = gateE (fun l => x0 (ix2 p l)) (fun k => x1 (ix2 p k)) x2 x3 (if q.val = 0 then x4 else x5) := by
  have hh : ∀ l : Fin 64, _ = hidE (preE (fun l => x0 (ix2 p l)) (fun k => x1 (ix2 p k)) x2 x3 l) :=
    fun l => rectify_apply _ p l _ (pre_apply x0 x1 x2 x3 p l)
  unfold k1_pay1
  dsimp only
  match q with
  | ⟨0, _⟩ =>
    exact (concatenate_pair_apply_left (t := S5000x2) (s₁ := S5000x1) (s₂ := S5000x1) (1 : Fin 2) _ _ concatenates_S5000x1_S5000x1_S5000x2_d1 (ix2 p (0 : Fin 2)) rfl (ix2 p (0 : Fin 1))
      (fun b => by match b with | ⟨0, _⟩ => rfl | ⟨1, _⟩ => rfl)).trans (column_apply _ x4 p _ hh)
  | ⟨1, _⟩ =>
    exact (concatenate_pair_apply_right (t := S5000x2) (s₁ := S5000x1) (s₂ := S5000x1) (1 : Fin 2) _ _ concatenates_S5000x1_S5000x1_S5000x2_d1 (ix2 p (1 : Fin 2)) rfl rfl (ix2 p (0 : Fin 1))
      (fun b hb => by match b, hb with | ⟨0, _⟩, _ => rfl | ⟨1, _⟩, hb => exact absurd rfl hb) rfl).trans (column_apply _ x5 p _ hh)

theorem zeroOff : (![0, 0] : Fin 2 → Nat) = fun _ => 0 := funext (Fin.forall_fin_two.2 ⟨rfl, rfl⟩)

/-- What the output array ends holding: at `(u, j)` the gate of node `u` against `w5` (`j = 0`) or `w7`. -/
def gateArr (A : S100000x64.Idx → EReal) (X : S100000x128.Idx → EReal) (W : S128x64.Idx → EReal)
    (b w5 w7 : S1x64.Idx → EReal) : S100000x2.Idx → EReal :=
  fun i => gateE (fun l => A (ix2 (i 0) l)) (fun k => X (ix2 (i 0) k)) W b (if (i 1).val = 0 then w5 else w7)

theorem gridIdx1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 19 ∧ win1_6.index t (1 : Fin 2) = 0 :=
  (by decide +kernel : ∀ t : Fin grid1.N, _)

theorem gridOnto1 : ∀ q0 : Fin 20, ∃ t : Fin cfg1.N, win1_6.index t = ![q0.val, 0] :=
  (by decide +kernel : ∀ q0 : Fin 20, ∃ t : Fin grid1.N, win1_6.index t = ![q0.val, 0])

-- row p of the block at point t is row 5000·(row block of t) + p of each row-blocked array
theorem flushed1_6_eq (c : Dev nD) (t : Fin cfg1.N) :
    (dat1 V c).flushed 6 t = ((cfg1.win 6).blk t).view.read (Elt Ideal)
      (gateArr (V c main_v16) (V c main_arg0) (V c main_v17) (V c main_v18) (V c main_arg5) (V c main_arg7)) := by
  show (cfg1.win 6).cut (grid1.coords t) ((dat1 V c).after 6 t) = _
  rw [after1_6]
  unfold out1_6
  rw [View.canon_unit_zero zeroOff]
  simp only [View.ld_unit_zero (S := S5000x64) zeroOff, View.ld_unit_zero (S := S5000x128) zeroOff,
    View.ld_unit_zero (S := S128x64) zeroOff, View.ld_unit_zero (S := S1x64) zeroOff]
  obtain ⟨e00, e01, e10, e11, e20, e21, e30, e31, e40, e41, e50, e51, e60, e61⟩ := gridIdx1 t
  have h2 : (iblk1 V c 2 t : S128x64.Idx → EReal) = V c main_v17 := funext fun j =>
    congrArg (V c main_v17 : S128x64.Idx → EReal) (Shape.idx_ext₂
      (win1_2.rect_emb_val_of_index_zero t (0 : Fin 2) e20 j)
      (win1_2.rect_emb_val_of_index_zero t (1 : Fin 2) e21 j))
  have h3 : (iblk1 V c 3 t : S1x64.Idx → EReal) = V c main_v18 := funext fun j =>
    congrArg (V c main_v18 : S1x64.Idx → EReal) (Shape.idx_ext₂
      (win1_3.rect_emb_val_of_index_zero t (0 : Fin 2) e30 j)
      (win1_3.rect_emb_val_of_index_zero t (1 : Fin 2) e31 j))
  have h4 : (iblk1 V c 4 t : S1x64.Idx → EReal) = V c main_arg5 := funext fun j =>
    congrArg (V c main_arg5 : S1x64.Idx → EReal) (Shape.idx_ext₂
      (win1_4.rect_emb_val_of_index_zero t (0 : Fin 2) e40 j)
      (win1_4.rect_emb_val_of_index_zero t (1 : Fin 2) e41 j))
  have h5 : (iblk1 V c 5 t : S1x64.Idx → EReal) = V c main_arg7 := funext fun j =>
    congrArg (V c main_arg7 : S1x64.Idx → EReal) (Shape.idx_ext₂
      (win1_5.rect_emb_val_of_index_zero t (0 : Fin 2) e50 j)
      (win1_5.rect_emb_val_of_index_zero t (1 : Fin 2) e51 j))
  funext j
  obtain ⟨p, q, rfl⟩ : ∃ (p : Fin 5000) (q : Fin 2), j = ix2 p q := ⟨j 0, j 1, eq_ix2 j⟩
  have hp := p.isLt
  have hq : ((((cfg1.win 6).blk t).view.emb (ix2 p q)) 1).val = q.val := by
    show win1_6.index t (1 : Fin 2) * 2 + 1 * q.val = q.val; omega
  show k1_pay1 (iblk1 V c 0 t) (iblk1 V c 1 t) (iblk1 V c 2 t) (iblk1 V c 3 t) (iblk1 V c 4 t) (iblk1 V c 5 t) (ix2 p q)
    = gateE _ _ _ _ (if ((((cfg1.win 6).blk t).view.emb (ix2 p q)) 1).val = 0 then _ else _)
  rw [pay1_apply, h2, h3, h4, h5, hq]
  refine congrArg₂ (fun a x => gateE a x _ _ _) (funext fun l => ?_) (funext fun k => ?_)
  · show (V c main_v16 : S100000x64.Idx → EReal) (((cfg1.win 0).blk t).view.emb (ix2 p l)) = (V c main_v16 : S100000x64.Idx → EReal) _
    refine congrArg _ (Shape.idx_ext₂ ?_ ?_)
    · show win1_0.index t (0 : Fin 2) * 5000 + 1 * p.val = win1_6.index t (0 : Fin 2) * 5000 + 1 * p.val; omega
    · show win1_0.index t (1 : Fin 2) * 64 + 1 * l.val = l.val; omega
  · show (V c main_arg0 : S100000x128.Idx → EReal) (((cfg1.win 1).blk t).view.emb (ix2 p k)) = (V c main_arg0 : S100000x128.Idx → EReal) _
    refine congrArg _ (Shape.idx_ext₂ ?_ ?_)
    · show win1_1.index t (0 : Fin 2) * 5000 + 1 * p.val = win1_6.index t (0 : Fin 2) * 5000 + 1 * p.val; omega
    · show win1_1.index t (1 : Fin 2) * 128 + 1 * k.val = k.val; omega

-- row r lies in the block of the point whose row block is r / 5000
theorem covered1_6 (i : S100000x2.Idx) : ∃ t : Fin cfg1.N, (cfg1.win 6).flush t = true ∧ i ∈ ((cfg1.win 6).blk t).view.set := by
  have hi0 : (i 0).val < 100000 := idx2_lt0 i
  have hi1 : (i 1).val < 2 := idx2_lt1 i
  obtain ⟨t, ht⟩ := gridOnto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  show i ∈ ((View.whole main_v19).slice (win1_6.rect t)).set
  rw [View.set_slice_whole, Rect.mem_set_unit]
  refine Fin.forall_fin_two.2 ⟨?_, ?_⟩
  · show win1_6.index t (0 : Fin 2) * 5000 ≤ (i 0).val ∧ (i 0).val < win1_6.index t (0 : Fin 2) * 5000 + 5000; omega
  · show win1_6.index t (1 : Fin 2) * 2 ≤ (i 1).val ∧ (i 1).val < win1_6.index t (1 : Fin 2) * 2 + 2; omega

theorem final1 (c : Dev nD) : (dat1 V c).arrAt 6 cfg1.N
    = gateArr (V c main_v16) (V c main_arg0) (V c main_v17) (V c main_v18) (V c main_arg5) (V c main_arg7) :=
  (dat1 V c).arrAt_eq_of_cover 6 _ (fun t _ => flushed1_6_eq V c t) covered1_6

theorem cmp_oge_coe (a b : ℝ) : Ideal.cmp .oge (a : EReal) (b : EReal) = if b ≤ a then 1#1 else 0#1 := by
  by_cases h : b ≤ a <;> simp [Ideal.cmp, h]

-- on a coerced real the select is the real leaky rectifier of slope κ
theorem hidE_coe (κ r : ℝ) (hκ : Ideal.ofBits .f32 0x3E4CCCCD#32 = ((κ : ℝ) : EReal)) :
    hidE (r : EReal) = ((Spec.leaky κ r : ℝ) : EReal) := by
  unfold hidE Spec.leaky
  rw [ofBits_zero_coe, hκ, cmp_oge_coe, mul_coe]
  by_cases h : (0 : ℝ) ≤ r
  · rw [if_pos h, if_pos h]; exact if_pos rfl
  · rw [if_neg h, if_neg h]; exact if_neg (by decide)

-- every term is a coerced real, so the gate is the coerced real gate
theorem gateE_real (a : Fin 64 → EReal) (x : Fin 128 → EReal) (W : S128x64.Idx → EReal) (b w : S1x64.Idx → EReal)
    (ar : Fin 64 → ℝ) (xr : Fin 128 → ℝ) (Wr : Fin 128 → Fin 64 → ℝ) (br wr : Fin 64 → ℝ) (κ : ℝ)
    (ha : ∀ l, a l = ((ar l : ℝ) : EReal)) (hx : ∀ k, x k = ((xr k : ℝ) : EReal))
    (hw : ∀ k l, W (ix2 k l) = ((Wr k l : ℝ) : EReal)) (hb : ∀ l, b (ix2 (0 : Fin 1) l) = ((br l : ℝ) : EReal))
    (hwr : ∀ l, w (ix2 (0 : Fin 1) l) = ((wr l : ℝ) : EReal))
    (hκ : Ideal.ofBits .f32 0x3E4CCCCD#32 = ((κ : ℝ) : EReal)) :
    gateE a x W b w = ((∑ l, Spec.leaky κ ((ar l + ∑ k, xr k * Wr k l) + br l) * wr l : ℝ) : EReal) := by
  refine sum_of_eq Finset.univ _ _ fun l _ => ?_
  unfold preE
  rw [ha, hb, sum_of_eq Finset.univ _ (fun k => xr k * Wr k l) (fun k _ => by rw [hx, hw, mul_coe]),
    add_coe, add_coe, hidE_coe κ _ hκ, hwr, mul_coe]

theorem final1_real (c : Dev nD) (a : Fin 100000 → Fin 64 → ℝ) (X : Fin 100000 → Fin 128 → ℝ) (W : Fin 128 → Fin 64 → ℝ) (b w5 w7 : Fin 64 → ℝ) (κ : ℝ)
    (ha : ∀ u l, (V c main_v16 : S100000x64.Idx → EReal) (ix2 u l) = ((a u l : ℝ) : EReal)) (hx : ∀ p q, (V c main_arg0 : S100000x128.Idx → EReal) (ix2 p q) = ((X p q : ℝ) : EReal))
    (hw : ∀ k l, (V c main_v17 : S128x64.Idx → EReal) (ix2 k l) = ((W k l : ℝ) : EReal)) (hb : ∀ l, (V c main_v18 : S1x64.Idx → EReal) (ix2 (0 : Fin 1) l) = ((b l : ℝ) : EReal))
    (h5 : ∀ l, (V c main_arg5 : S1x64.Idx → EReal) (ix2 (0 : Fin 1) l) = ((w5 l : ℝ) : EReal)) (h7 : ∀ l, (V c main_arg7 : S1x64.Idx → EReal) (ix2 (0 : Fin 1) l) = ((w7 l : ℝ) : EReal))
    (hκ : Ideal.ofBits .f32 0x3E4CCCCD#32 = ((κ : ℝ) : EReal)) (u : Fin 100000) :
    ((dat1 V c).arrAt 6 cfg1.N : S100000x2.Idx → EReal) (ix2 u (0 : Fin 2)) = ((∑ l, Spec.leaky κ ((a u l + ∑ k, X u k * W k l) + b l) * w5 l : ℝ) : EReal)
    ∧ ((dat1 V c).arrAt 6 cfg1.N : S100000x2.Idx → EReal) (ix2 u (1 : Fin 2)) = ((∑ l, Spec.leaky κ ((a u l + ∑ k, X u k * W k l) + b l) * w7 l : ℝ) : EReal) := by
  rw [final1 V c]
  exact ⟨gateE_real _ _ _ _ _ (a u) (X u) W b w5 κ (ha u) (hx u) hw hb h5 hκ,
    gateE_real _ _ _ _ _ (a u) (X u) W b w7 κ (ha u) (hx u) hw hb h7 hκ⟩

end Cert.KernelIdeal.Hand
-- ==== Proof.KI.Fold2.lean ====
import proofs.«409459_j15066745274947_3_alg».proof.Proof.Gen.KernelIdeal.Skeleton

noncomputable section

namespace Cert.KernelIdeal.Hand

open Idealize.ShloMosaic Cert.KernelIdeal Cert.KernelIdeal.Gen

variable {F : FTy → Type} [FloatOps F]

abbrev St2 (F : FTy → Type) [FloatOps F] : Type := Vec F S1x1 .f32 × Vec F S1x1 .f32 × Vec F S1x128 .f32

def init2 : St2 F := (k2_pay3, k2_pay4, k2_pay5)

def step2 (s : Vec F S5000x1 .f32) (x : Vec F S5000x128 .f32) (st : St2 F) : St2 F :=
  (k2_pay1 (k2_pay7 s st.1), k2_pay10 s st.1 st.2.1, k2_pay11 s x st.1 st.2.2)

def scAt2 (sb : Fin cfg2.N → Vec F S5000x1 .f32) (xb : Fin cfg2.N → Vec F S5000x128 .f32) : (n : ℕ) → n < cfg2.N → St2 F
  | 0, h => step2 (sb ⟨0, h⟩) (xb ⟨0, h⟩) init2
  | n + 1, h => step2 (sb ⟨n + 1, h⟩) (xb ⟨n + 1, h⟩) (scAt2 sb xb n (Nat.lt_of_succ_lt h))

def pooled2 (st : St2 F) : Vec F S1x128 .f32 := k2_pay2 st.2.2 st.2.1

end Cert.KernelIdeal.Hand

end
-- ==== Proof.KI.Val2.lean ====
import proofs.«409459_j15066745274947_3_alg».proof.Proof.KI.Fold2
import proofs.«409459_j15066745274947_3_alg».proof.Proof.Spec
import proofs.«409459_j15066745274947_3_alg».proof.Proof.LibIdealReal
import proofs.«409459_j15066745274947_3_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen
open Cert.LibIdealReal Cert.LibColumn
open scoped BigOperators

namespace Val2

theorem lift_row {N M : ℕ} (h : (⟨2, ![N, M]⟩ : Shape).Reduces [0] ⟨1, ![M]⟩) (d : Fin M) (p : Fin N) :
    h.lift (ix1 d) p = ix2 p d :=
  Shape.idx_ext₂ rfl rfl

theorem pay6_eq (sv : Vec Ideal S5000x1 .f32) : k2_pay6 (F := Ideal) sv = sv := by
  unfold k2_pay6
  exact shapeCast_self sv _

theorem pay7_read (sv : Vec Ideal S5000x1 .f32) (m : Vec Ideal S1x1 .f32) (f : Fin 5000 → ℝ)
    (hs : ∀ p : Fin 5000, sv (ix2 p (0 : Fin 1)) = ((f p : ℝ) : EReal)) :
    k2_pay7 (F := Ideal) sv m (ix2 (0 : Fin 1) (0 : Fin 1))
      = max (m (ix2 (0 : Fin 1) (0 : Fin 1))) (((Finset.univ : Finset (Fin 5000)).sup' ⟨0, Finset.mem_univ _⟩ f : ℝ) : EReal) := by
  unfold k2_pay7
  rw [pay6_eq]
  refine (maximumf_apply _ _ _).trans (congrArg (max (m (ix2 (0 : Fin 1) (0 : Fin 1)))) ?_)
  refine (shapeCast_a_a1_apply _ _ (0 : Fin 1) (0 : Fin 1)).trans ?_
  refine (Ideal.multiReduction_maximumf_single sv _ _ _ _ (ix1 (0 : Fin 1))).trans ?_
  rw [Ideal.ofBits_def, ofBits_neg_inf]
  exact fold_max_bot_of_eq (Finset.univ : Finset (Fin 5000)) ⟨0, Finset.mem_univ _⟩ _ f
    fun p => (congrArg sv (lift_row _ (0 : Fin 1) p)).trans (hs p)

theorem pay8_read (sv : Vec Ideal S5000x1 .f32) (m : Vec Ideal S1x1 .f32) :
    k2_pay8 (F := Ideal) sv m (ix2 (0 : Fin 1) (0 : Fin 1))
      = Ideal.exp (m (ix2 (0 : Fin 1) (0 : Fin 1)) - k2_pay7 (F := Ideal) sv m (ix2 (0 : Fin 1) (0 : Fin 1))) := rfl

theorem pay9_read (sv : Vec Ideal S5000x1 .f32) (m : Vec Ideal S1x1 .f32) (p : Fin 5000) :
    k2_pay9 (F := Ideal) sv m (ix2 p (0 : Fin 1))
      = Ideal.exp (sv (ix2 p (0 : Fin 1)) - k2_pay7 (F := Ideal) sv m (ix2 (0 : Fin 1) (0 : Fin 1))) := by
  unfold k2_pay9
  rw [pay6_eq]
  show Ideal.exp (sv (ix2 p (0 : Fin 1)) - broadcastTo S5000x1 (k2_pay7 (F := Ideal) sv m) broadcasts_S1x1_S5000x1 (ix2 p (0 : Fin 1))) = _
  rw [broadcastTo_1b_ab_apply]

theorem pay10_read (sv : Vec Ideal S5000x1 .f32) (m l : Vec Ideal S1x1 .f32) :
    k2_pay10 (F := Ideal) sv m l (ix2 (0 : Fin 1) (0 : Fin 1))
      = k2_pay8 (F := Ideal) sv m (ix2 (0 : Fin 1) (0 : Fin 1)) * l (ix2 (0 : Fin 1) (0 : Fin 1))
        + ∑ p : Fin 5000, k2_pay9 (F := Ideal) sv m (ix2 p (0 : Fin 1)) := by
  unfold k2_pay10
  rw [shapeCast_self]
  refine (addf_apply _ _ _).trans ?_
  refine congrArg₂ (· + ·) rfl ?_
  refine (shapeCast_a_a1_apply _ _ (0 : Fin 1) (0 : Fin 1)).trans ?_
  refine (Ideal.multiReduction_add_single _ _ _ _ _ (ix1 (0 : Fin 1))).trans ?_
  exact Finset.sum_congr rfl fun p _ => congrArg (k2_pay9 (F := Ideal) sv m) (lift_row _ (0 : Fin 1) p)

theorem pay11_read (sv : Vec Ideal S5000x1 .f32) (xv : Vec Ideal S5000x128 .f32) (m : Vec Ideal S1x1 .f32)
    (a : Vec Ideal S1x128 .f32) (d : Fin 128) :
    k2_pay11 (F := Ideal) sv xv m a (ix2 (0 : Fin 1) d)
      = k2_pay8 (F := Ideal) sv m (ix2 (0 : Fin 1) (0 : Fin 1)) * a (ix2 (0 : Fin 1) d)
        + ∑ p : Fin 5000, k2_pay9 (F := Ideal) sv m (ix2 p (0 : Fin 1)) * xv (ix2 p d) := by
  unfold k2_pay11
  rw [shapeCast_self]
  refine (addf_apply _ _ _).trans ?_
  refine congrArg₂ (· + ·) ?_ ?_
  · refine (mulf_apply _ _ _).trans ?_
    refine congrArg (· * a (ix2 (0 : Fin 1) d)) ?_
    exact broadcastTo_a1_ab_apply _ _ (0 : Fin 1) d
  · refine (shapeCast_a_1a_apply _ _ (0 : Fin 1) d).trans ?_
    refine (Ideal.multiReduction_add_single _ _ _ _ _ (ix1 d)).trans ?_
    refine Finset.sum_congr rfl fun (p : Fin 5000) _ => ?_
    refine (congrArg (mulf (broadcastTo S5000x128 (k2_pay9 (F := Ideal) sv m) broadcasts_S5000x1_S5000x128) xv)
      (lift_row _ d p)).trans ?_
    refine (mulf_apply _ _ _).trans ?_
    refine congrArg (· * xv (ix2 p d)) ?_
    exact broadcastTo_a1_ab_apply _ _ p d

theorem pay2_read (a : Vec Ideal S1x128 .f32) (l : Vec Ideal S1x1 .f32) (d : Fin 128) :
    k2_pay2 (F := Ideal) a l (ix2 (0 : Fin 1) d) = Ideal.div (a (ix2 (0 : Fin 1) d)) (l (ix2 (0 : Fin 1) (0 : Fin 1))) := by
  unfold k2_pay2
  refine (divf_apply _ _ _).trans ?_
  refine congrArg (Ideal.div (a (ix2 (0 : Fin 1) d))) ?_
  exact broadcastTo_a1_ab_apply _ _ (0 : Fin 1) d

section Real

variable (s : Fin 100000 → ℝ) (X : Fin 100000 → Fin 128 → ℝ)

def sN (i : ℕ) : ℝ := if h : i < 100000 then s ⟨i, h⟩ else 0

def xN (i : ℕ) (d : Fin 128) : ℝ := if h : i < 100000 then X ⟨i, h⟩ d else 0

theorem sN_of_lt {i : ℕ} (h : i < 100000) : sN s i = s ⟨i, h⟩ := dif_pos h

theorem xN_of_lt {i : ℕ} (h : i < 100000) (d : Fin 128) : xN X i d = X ⟨i, h⟩ d := dif_pos h

def tMax (t : ℕ) : ℝ := (Finset.univ : Finset (Fin 5000)).sup' ⟨0, Finset.mem_univ _⟩ fun p => sN s (5000 * t + p.val)

def rMax : ℕ → ℝ
  | 0 => tMax s 0
  | n + 1 => max (rMax n) (tMax s (n + 1))

-- moving the reference point from m to m' multiplies every term by exp (m − m')
theorem sum_shift (w : ℕ → ℝ) (N : ℕ) (m m' : ℝ) :
    Real.exp (m - m') * ∑ i ∈ Finset.range N, Real.exp (sN s i - m) * w i
      = ∑ i ∈ Finset.range N, Real.exp (sN s i - m') * w i := by
  rw [Finset.mul_sum]
  refine Finset.sum_congr rfl fun i _ => ?_
  rw [← mul_assoc, ← Real.exp_add]
  congr 2
  ring

theorem sum_shift_one (N : ℕ) (m m' : ℝ) :
    Real.exp (m - m') * ∑ i ∈ Finset.range N, Real.exp (sN s i - m) = ∑ i ∈ Finset.range N, Real.exp (sN s i - m') := by
  simpa only [mul_one] using sum_shift s (fun _ => 1) N m m'

theorem sum_first (w : ℕ → ℝ) (m' : ℝ) :
    (0 : ℝ) * 0 + ∑ p : Fin 5000, Real.exp (sN s (5000 * 0 + p.val) - m') * w (5000 * 0 + p.val)
      = ∑ i ∈ Finset.range (5000 * (0 + 1)), Real.exp (sN s i - m') * w i := by
  rw [zero_mul, zero_add, show 5000 * (0 + 1) = 5000 from rfl, Finset.sum_range]
  refine Finset.sum_congr rfl fun p _ => ?_
  rw [Nat.mul_zero, Nat.zero_add]

theorem sum_next (w : ℕ → ℝ) (n : ℕ) (m m' : ℝ) :
    Real.exp (m - m') * (∑ i ∈ Finset.range (5000 * (n + 1)), Real.exp (sN s i - m) * w i)
        + ∑ p : Fin 5000, Real.exp (sN s (5000 * (n + 1) + p.val) - m') * w (5000 * (n + 1) + p.val)
      = ∑ i ∈ Finset.range (5000 * (n + 1 + 1)), Real.exp (sN s i - m') * w i := by
  rw [show 5000 * (n + 1 + 1) = 5000 * (n + 1) + 5000 from Nat.mul_succ _ _, Finset.sum_range_add, sum_shift,
    Finset.sum_range (fun k => Real.exp (sN s (5000 * (n + 1) + k) - m') * w (5000 * (n + 1) + k))]

theorem sum_first_one (m' : ℝ) :
    (0 : ℝ) * 0 + ∑ p : Fin 5000, Real.exp (sN s (5000 * 0 + p.val) - m')
      = ∑ i ∈ Finset.range (5000 * (0 + 1)), Real.exp (sN s i - m') := by
  simpa only [mul_one] using sum_first s (fun _ => 1) m'

theorem sum_next_one (n : ℕ) (m m' : ℝ) :
    Real.exp (m - m') * (∑ i ∈ Finset.range (5000 * (n + 1)), Real.exp (sN s i - m))
        + ∑ p : Fin 5000, Real.exp (sN s (5000 * (n + 1) + p.val) - m')
      = ∑ i ∈ Finset.range (5000 * (n + 1 + 1)), Real.exp (sN s i - m') := by
  simpa only [mul_one] using sum_next s (fun _ => 1) n m m'

end Real

theorem init2_read : (init2 (F := Ideal)).1 (ix2 (0 : Fin 1) (0 : Fin 1)) = ⊥
    ∧ (init2 (F := Ideal)).2.1 (ix2 (0 : Fin 1) (0 : Fin 1)) = ((0 : ℝ) : EReal)
    ∧ ∀ d : Fin 128, (init2 (F := Ideal)).2.2 (ix2 (0 : Fin 1) d) = ((0 : ℝ) : EReal) := by
  unfold init2 k2_pay3 k2_pay4 k2_pay5
  simp only [shapeCast_self]
  exact ⟨ofBits_neg_inf, ofBits_zero_coe, fun _ => ofBits_zero_coe⟩

theorem step2_read (sv : Vec Ideal S5000x1 .f32) (xv : Vec Ideal S5000x128 .f32) (st : St2 Ideal)
    (f : Fin 5000 → ℝ) (g : Fin 5000 → Fin 128 → ℝ)
    (hs : ∀ p : Fin 5000, sv (ix2 p (0 : Fin 1)) = ((f p : ℝ) : EReal))
    (hx : ∀ (p : Fin 5000) (q : Fin 128), xv (ix2 p q) = ((g p q : ℝ) : EReal))
    (l : ℝ) (a : Fin 128 → ℝ) (m' c : ℝ)
    (hl : st.2.1 (ix2 (0 : Fin 1) (0 : Fin 1)) = ((l : ℝ) : EReal))
    (ha : ∀ d : Fin 128, st.2.2 (ix2 (0 : Fin 1) d) = ((a d : ℝ) : EReal))
    (hm : max (st.1 (ix2 (0 : Fin 1) (0 : Fin 1)))
        (((Finset.univ : Finset (Fin 5000)).sup' ⟨0, Finset.mem_univ _⟩ f : ℝ) : EReal) = ((m' : ℝ) : EReal))
    (hc : Ideal.exp (st.1 (ix2 (0 : Fin 1) (0 : Fin 1)) - ((m' : ℝ) : EReal)) = ((c : ℝ) : EReal)) :
    (step2 sv xv st).1 (ix2 (0 : Fin 1) (0 : Fin 1)) = ((m' : ℝ) : EReal)
    ∧ (step2 sv xv st).2.1 (ix2 (0 : Fin 1) (0 : Fin 1))
        = ((c * l + ∑ p : Fin 5000, Real.exp (f p - m') : ℝ) : EReal)
    ∧ ∀ d : Fin 128, (step2 sv xv st).2.2 (ix2 (0 : Fin 1) d)
        = ((c * a d + ∑ p : Fin 5000, Real.exp (f p - m') * g p d : ℝ) : EReal) := by
  have h7 : k2_pay7 (F := Ideal) sv st.1 (ix2 (0 : Fin 1) (0 : Fin 1)) = ((m' : ℝ) : EReal) :=
    (pay7_read sv st.1 f hs).trans hm
  have h8 : k2_pay8 (F := Ideal) sv st.1 (ix2 (0 : Fin 1) (0 : Fin 1)) = ((c : ℝ) : EReal) := by
    rw [pay8_read, h7]; exact hc
  have h9 : ∀ p : Fin 5000, k2_pay9 (F := Ideal) sv st.1 (ix2 p (0 : Fin 1)) = ((Real.exp (f p - m') : ℝ) : EReal) :=
    fun p => by rw [pay9_read, h7, hs p, sub_coe, exp_coe]
  refine ⟨?_, ?_, fun d => ?_⟩
  · show k2_pay1 (F := Ideal) (k2_pay7 sv st.1) (ix2 (0 : Fin 1) (0 : Fin 1)) = _
    unfold k2_pay1
    rw [shapeCast_self]
    exact h7
  · show k2_pay10 (F := Ideal) sv st.1 st.2.1 (ix2 (0 : Fin 1) (0 : Fin 1)) = _
    rw [pay10_read, h8, hl, mul_coe, sum_of_eq Finset.univ _ _ (fun p _ => h9 p), add_coe]
  · show k2_pay11 (F := Ideal) sv xv st.1 st.2.2 (ix2 (0 : Fin 1) d) = _
    rw [pay11_read, h8, ha d, mul_coe,
      sum_of_eq Finset.univ _ (fun p => Real.exp (f p - m') * g p d) (fun p _ => by rw [h9 p, hx p d, mul_coe]), add_coe]

section Fold

variable (s : Fin 100000 → ℝ) (X : Fin 100000 → Fin 128 → ℝ)
  (sb : Fin cfg2.N → Vec Ideal S5000x1 .f32) (xb : Fin cfg2.N → Vec Ideal S5000x128 .f32)
  (hs : ∀ (t : Fin cfg2.N) (p : Fin 5000) (h : 5000 * t.val + p.val < 100000),
    sb t (ix2 p (0 : Fin 1)) = ((s ⟨5000 * t.val + p.val, h⟩ : ℝ) : EReal))
  (hx : ∀ (t : Fin cfg2.N) (p : Fin 5000) (q : Fin 128) (h : 5000 * t.val + p.val < 100000),
    xb t (ix2 p q) = ((X ⟨5000 * t.val + p.val, h⟩ q : ℝ) : EReal))

include hs in

theorem tile_s (t : ℕ) (ht : t < cfg2.N) (p : Fin 5000) :
    sb ⟨t, ht⟩ (ix2 p (0 : Fin 1)) = ((sN s (5000 * t + p.val) : ℝ) : EReal) := by
  have h : 5000 * t + p.val < 100000 := by have := p.isLt; have : cfg2.N = 20 := (by decide); omega
  rw [sN_of_lt s h]
  exact hs ⟨t, ht⟩ p h

include hx in

theorem tile_x (t : ℕ) (ht : t < cfg2.N) (p : Fin 5000) (q : Fin 128) :
    xb ⟨t, ht⟩ (ix2 p q) = ((xN X (5000 * t + p.val) q : ℝ) : EReal) := by
  have h : 5000 * t + p.val < 100000 := by have := p.isLt; have : cfg2.N = 20 := (by decide); omega
  rw [xN_of_lt X h]
  exact hx ⟨t, ht⟩ p q h

include hs hx in

theorem scAt2_read (n : ℕ) (hn : n < cfg2.N) :
    (scAt2 (F := Ideal) sb xb n hn).1 (ix2 (0 : Fin 1) (0 : Fin 1)) = ((rMax s n : ℝ) : EReal)
    ∧ (scAt2 (F := Ideal) sb xb n hn).2.1 (ix2 (0 : Fin 1) (0 : Fin 1))
        = ((∑ i ∈ Finset.range (5000 * (n + 1)), Real.exp (sN s i - rMax s n) : ℝ) : EReal)
    ∧ ∀ d : Fin 128, (scAt2 (F := Ideal) sb xb n hn).2.2 (ix2 (0 : Fin 1) d)
        = ((∑ i ∈ Finset.range (5000 * (n + 1)), Real.exp (sN s i - rMax s n) * xN X i d : ℝ) : EReal) := by
  induction n with
  | zero =>
    obtain ⟨im, il, ia⟩ := init2_read
    have e : scAt2 (F := Ideal) sb xb 0 hn = step2 (sb ⟨0, hn⟩) (xb ⟨0, hn⟩) init2 := rfl
    rw [e]
    have h := step2_read (sb ⟨0, hn⟩) (xb ⟨0, hn⟩) init2 (fun p => sN s (5000 * 0 + p.val))
      (fun p q => xN X (5000 * 0 + p.val) q) (tile_s s sb hs 0 hn) (tile_x X xb hx 0 hn) 0 (fun _ => 0) (tMax s 0) 0
      il ia (by rw [im]; exact max_bot_left _) (by rw [im, EReal.bot_sub, Ideal.exp_bot, EReal.coe_zero])
    refine ⟨h.1, h.2.1.trans (congrArg _ ?_), fun d => (h.2.2 d).trans (congrArg _ ?_)⟩
    · exact sum_first_one s (tMax s 0)
    · exact sum_first s (fun i => xN X i d) (tMax s 0)
  | succ n ih =>
    have e : scAt2 (F := Ideal) sb xb (n + 1) hn
        = step2 (sb ⟨n + 1, hn⟩) (xb ⟨n + 1, hn⟩) (scAt2 sb xb n (Nat.lt_of_succ_lt hn)) := rfl
    rw [e]
    obtain ⟨hm, hl, ha⟩ := ih (Nat.lt_of_succ_lt hn)
    have h := step2_read (sb ⟨n + 1, hn⟩) (xb ⟨n + 1, hn⟩) (scAt2 sb xb n (Nat.lt_of_succ_lt hn))
      (fun p => sN s (5000 * (n + 1) + p.val)) (fun p q => xN X (5000 * (n + 1) + p.val) q)
      (tile_s s sb hs (n + 1) hn) (tile_x X xb hx (n + 1) hn) _ _ (rMax s (n + 1))
      (Real.exp (rMax s n - rMax s (n + 1))) hl ha (by rw [hm]; exact max_coe _ _) (by rw [hm, sub_coe, exp_coe])
    refine ⟨h.1, h.2.1.trans (congrArg _ ?_), fun d => (h.2.2 d).trans (congrArg _ ?_)⟩
    · exact sum_next_one s n (rMax s n) (rMax s (n + 1))
    · exact sum_next s (fun i => xN X i d) n (rMax s n) (rMax s (n + 1))

end Fold

end Val2

-- the quotient does not depend on the reference point, so the running maximum may be replaced by the largest logit
theorem fold2_real (s : Fin 100000 → ℝ) (X : Fin 100000 → Fin 128 → ℝ)
    (sb : Fin cfg2.N → Vec Ideal S5000x1 .f32) (xb : Fin cfg2.N → Vec Ideal S5000x128 .f32)
    (hs : ∀ (t : Fin cfg2.N) (p : Fin 5000) (h : 5000 * t.val + p.val < 100000),
      sb t (ix2 p (0 : Fin 1)) = ((s ⟨5000 * t.val + p.val, h⟩ : ℝ) : EReal))
    (hx : ∀ (t : Fin cfg2.N) (p : Fin 5000) (q : Fin 128) (h : 5000 * t.val + p.val < 100000),
      xb t (ix2 p q) = ((X ⟨5000 * t.val + p.val, h⟩ q : ℝ) : EReal))
    (h19 : 19 < cfg2.N) (d : Fin 128) :
    pooled2 (F := Ideal) (scAt2 sb xb 19 h19) (ix2 (0 : Fin 1) d) = ((Spec.poolK s X d : ℝ) : EReal) := by
  obtain ⟨_, hl, ha⟩ := Val2.scAt2_read s X sb xb hs hx 19 h19
  have hpos : (∑ i ∈ Finset.range (5000 * (19 + 1)), Real.exp (Val2.sN s i - Val2.rMax s 19)) ≠ 0 :=
    ne_of_gt (Finset.sum_pos (fun i _ => Real.exp_pos _) ⟨0, Finset.mem_range.mpr (by norm_num)⟩)
  unfold pooled2
  rw [Val2.pay2_read, ha d, hl, div_coe _ hpos]
  refine congrArg _ ?_
  unfold Spec.poolK Spec.sden
  refine (mul_div_mul_left _ _ (Real.exp_ne_zero (Val2.rMax s 19 - Spec.smax s))).symm.trans ?_
  rw [Val2.sum_shift, Val2.sum_shift_one, show 5000 * (19 + 1) = 100000 from rfl, Finset.sum_range, Finset.sum_range]
  refine congrArg₂ (· / ·) (Finset.sum_congr rfl fun u _ => ?_) (Finset.sum_congr rfl fun u _ => ?_)
  · rw [Val2.sN_of_lt s u.isLt, Val2.xN_of_lt X u.isLt]
  · rw [Val2.sN_of_lt s u.isLt]

end Cert.KernelIdeal.Hand

end
-- ==== Proof.Reads.lean ====
import proofs.«409459_j15066745274947_3_alg».proof.Proof.Spec
import Idealize.ShloMosaic.PureOps.Ideal
import Idealize.ShloMosaic.Lib.ValueIdx

noncomputable section

namespace Cert.Edges

/-- The node a source word names: a negative word counts from the end of the table, and the position is kept inside it. -/
def rowOf (w : BitVec 32) : Fin 100000 :=
  ⟨min ((if w.slt 0#32 then w + 100000#32 else w).toInt.toNat) 99999, by omega⟩

/-- The destination word, read signed, is node `u`'s position. -/
def hitOf (w : BitVec 32) (u : Fin 100000) : Prop := w.toInt = (u.val : ℤ)

instance (w : BitVec 32) (u : Fin 100000) : Decidable (hitOf w u) := by unfold hitOf; infer_instance

end Cert.Edges

namespace Cert

open Idealize.ShloMosaic Idealize.ShloMosaic.ValueIdx

/-- The eight argument arrays are the coercions of the real input `I`, whose edges are the ones the index array spells. -/
structure Reads (a0 : FVec Ideal ⟨2, ![100000, 128]⟩ .f32) (a1 : IVec ⟨2, ![2, 1600000]⟩ 32)
    (a2 : FVec Ideal ⟨2, ![64, 128]⟩ .f32) (a3 : FVec Ideal ⟨1, ![64]⟩ .f32) (a4 : FVec Ideal ⟨2, ![64, 128]⟩ .f32)
    (a5 : FVec Ideal ⟨2, ![1, 64]⟩ .f32) (a6 : FVec Ideal ⟨1, ![1]⟩ .f32) (a7 : FVec Ideal ⟨2, ![1, 64]⟩ .f32)
    (I : Spec.Inp) : Prop where
  x : ∀ (p : Fin 100000) (q : Fin 128), a0 (ix2 p q) = ((I.X p q : ℝ) : EReal)
  w1 : ∀ (l : Fin 64) (d : Fin 128), a2 (ix2 l d) = ((I.A1 l d : ℝ) : EReal)
  b1 : ∀ l : Fin 64, a3 (ix1 l) = ((I.B1 l : ℝ) : EReal)
  w4 : ∀ (l : Fin 64) (d : Fin 128), a4 (ix2 l d) = ((I.A4 l d : ℝ) : EReal)
  w5 : ∀ l : Fin 64, a5 (ix2 (0 : Fin 1) l) = ((I.A5 l : ℝ) : EReal)
  b2 : a6 (ix1 (0 : Fin 1)) = ((I.B2 : ℝ) : EReal)
  w7 : ∀ l : Fin 64, a7 (ix2 (0 : Fin 1) l) = ((I.A7 l : ℝ) : EReal)
  slope : Ideal.ofBits .f32 0x3E4CCCCD#32 = ((I.κ : ℝ) : EReal)
  row : ∀ e : Fin 1600000, I.row e = Edges.rowOf (a1 (ix2 (0 : Fin 2) e))
  hit : ∀ (e : Fin 1600000) (u : Fin 100000), I.hit e u ↔ Edges.hitOf (a1 (ix2 (1 : Fin 2) e)) u

end Cert

end
-- ==== Proof.LibScatterGather2.lean ====
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

section Scatter

variable {N C M w : Nat} {φ : FTy} (d : ScatterDims ⟨2, ![N, C]⟩ ⟨2, ![M, 1]⟩ ⟨2, ![M, C]⟩)
  (huw : d.updateWindowDims = [1]) (hiw : d.insertedWindowDims = [0]) (hsd : d.scatterDimsToOperandDims = [0])
  (hivd : d.indexVectorDim = 1) (x : FVec Ideal ⟨2, ![N, C]⟩ φ) (idx : IVec ⟨2, ![M, 1]⟩ w)

include huw hiw hsd hivd

-- On the row axis the start is the row's index word and the window coordinate zero; on the column axis the start is zero and the window coordinate the column.
theorem start_window (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d
  simp only at huw hiw hsd hivd
  subst huw hiw hsd hivd
  refine ⟨(dif_pos (List.mem_singleton.mpr rfl)).trans (congrArg (fun k => (idx k).toInt) (funext fun b => ?_)),
    dif_neg (by decide : (1 : Fin 2) ∉ [0]), dif_neg (by decide : (0 : Fin 2) ∉ (List.finRange 2).filter (· ∉ [0])),
    (dif_pos (by decide : (1 : Fin 2) ∈ (List.finRange 2).filter (· ∉ [0]))).trans rfl⟩
  match b with
  | ⟨0, _⟩ => exact Fin.ext rfl
  | ⟨1, _⟩ => exact Fin.ext rfl

-- An update lands on `i` exactly when start plus window coordinate is `i`'s coordinate on both axes.
theorem resultIdx?_iff (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  rw [Option.dite_none_right_eq_some]
  constructor
  · rintro ⟨hc, hf⟩
    have h0 : (d.start jj idx 0 + (d.window jj 0 : ℤ)).toNat = (i 0).val := congrArg (fun f => (f 0).val) (Option.some.inj hf)
    have h1 : (d.start jj idx 1 + (d.window jj 1 : ℤ)).toNat = (i 1).val := congrArg (fun f => (f 1).val) (Option.some.inj hf)
    have hc0 := (hc 0).1
    rw [hs0, hw0] at hc0 h0
    rw [hs1, hw1] at h1
    exact ⟨by omega, by omega⟩
  · rintro ⟨h, h'⟩
    have e : ∀ a : Fin 2, d.start jj idx a + (d.window jj a : ℤ) = ((i a).val : ℤ) := fun a => by
      match a with
      | ⟨0, _⟩ => show d.start jj idx 0 + (d.window jj 0 : ℤ) = ((i 0).val : ℤ); rw [hs0, hw0]; omega
      | ⟨1, _⟩ => show d.start jj idx 1 + (d.window jj 1 : ℤ) = ((i 1).val : ℤ); rw [hs1, hw1]; omega
    refine ⟨fun a => by rw [e a]; exact ⟨Int.natCast_nonneg _, Int.ofNat_lt.mpr (i a).isLt⟩,
      congrArg some (funext fun a => Fin.ext ?_)⟩
    show (d.start jj idx a + (d.window jj a : ℤ)).toNat = (i a).val
    rw [e a]
    exact Int.toNat_natCast _

-- The update indices that land on `(u, j)` are the `(e, j)` with `e`'s word equal to `u`.
theorem scatterAdd_apply (upd : FVec Ideal ⟨2, ![M, C]⟩ φ) (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

section Gather

variable {α : Type} {N C M w : Nat}

-- The operand index is the clamped start on the row axis and the offset coordinate on the column axis.
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

end Gather

end Cert.LibScatterGather2

end
-- ==== Proof.KI.ValHost.lean ====
import proofs.«409459_j15066745274947_3_alg».proof.Proof.Gen.KernelIdeal.Launch
import proofs.«409459_j15066745274947_3_alg».proof.Proof.Reads
import proofs.«409459_j15066745274947_3_alg».proof.Proof.LibIdealReal
import proofs.«409459_j15066745274947_3_alg».proof.Proof.LibScatterGather2
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

variable (Wv : Valuation τ sig (Elt Ideal))

theorem host0_v4 (k : Fin 128) (l : Fin 64) :
    (StableHlo.after (hostOps0 (F := Ideal)) Wv (Proc.devRef .tc main_v4) : S128x64.Idx → EReal) (ix2 k l)
      = (Wv (Proc.devRef .tc main_arg2) : S64x128.Idx → EReal) (ix2 l k) := by
  after_results
  exact transpose_ix2_apply _ _ k l

theorem host0_v1 (e : Fin 1600000) :
    (StableHlo.after (hostOps0 (F := Ideal)) Wv (Proc.devRef .tc main_v1) : S1600000.Idx → BitVec 32) (ix1 e)
      = (Wv (Proc.devRef .tc main_arg1) : S2x1600000.Idx → BitVec 32) (ix2 (0 : Fin 2) e) := by
  after_results
  exact (shapeCast_1a_a_apply _ _ e).trans (slice2_axis0_apply 0 _ _ 0 e 0 rfl)

theorem host0_v3 (e : Fin 1600000) :
    (StableHlo.after (hostOps0 (F := Ideal)) Wv (Proc.devRef .tc main_v3) : S1600000.Idx → BitVec 32) (ix1 e)
      = (Wv (Proc.devRef .tc main_arg1) : S2x1600000.Idx → BitVec 32) (ix2 (1 : Fin 2) e) := by
  after_results
  exact (shapeCast_1a_a_apply _ _ e).trans (slice2_axis0_apply 1 _ _ 0 e 1 rfl)

theorem col_edges_apply {α : Type} (x : S1600000.Idx → α) (e : Fin 1600000) :
    broadcastInDim S1600000x1 ![0] bcast_S1600000_S1600000x1_0 x (ix2 e (0 : Fin 1)) = x (ix1 e) := by
  refine broadcastInDim_apply _ _ x (ix2 e (0 : Fin 1)) (ix1 e) fun a => ?_
  match a with
  | ⟨0, _⟩ => rfl

-- A source word below zero counts from the end of the table: by cases on its sign.
theorem wrap_apply (w : S1600000.Idx → BitVec 32) (e : Fin 1600000) :
    (select (cmpi .slt w (broadcastInDim S1600000 ![] bcast_S_S1600000 (constantI S_ 32 0#32)))
        (addi w (broadcastInDim S1600000 ![] bcast_S_S1600000 (constantI S_ 32 100000#32))) w
      : S1600000.Idx → BitVec 32) (ix1 e)
      = if (w (ix1 e)).slt 0#32 then w (ix1 e) + 100000#32 else w (ix1 e) := by
  show (if BitVec.ofBool ((w (ix1 e)).slt 0#32) = 1#1 then w (ix1 e) + 100000#32 else w (ix1 e)) = _
  cases (w (ix1 e)).slt 0#32 <;> simp

-- The scatter adds the gathered rows into a zero table; a gathered row is at the wrapped source word, clamped: the node it names.
theorem host1_v16 (u : Fin 100000) (l : Fin 64) :
    (StableHlo.after (hostOps1 (F := Ideal)) Wv (Proc.devRef .tc main_v16) : S100000x64.Idx → EReal) (ix2 u l)
      = (0 : EReal) + (∑ e ∈ Finset.univ.filter (fun e : Fin 1600000 =>
            Edges.hitOf ((Wv (Proc.devRef .tc main_v3) : S1600000.Idx → BitVec 32) (ix1 e)) u),
          (Wv (Proc.devRef .tc main_v5) : S100000x64.Idx → EReal)
            (ix2 (Edges.rowOf ((Wv (Proc.devRef .tc main_v1) : S1600000.Idx → BitVec 32) (ix1 e))) l) : EReal) := by
  after_results
  rw [LibScatterGather2.scatterAdd_apply _ rfl rfl rfl rfl]
  refine congrArg₂ (· + ·) LibIdealReal.ofBits_zero
    (Finset.sum_congr (Finset.filter_congr fun e _ => by rw [col_edges_apply]; exact Iff.rfl) fun e _ => ?_)
  rw [extf_apply, LibScatterGather2.gather_apply_clamp _ rfl rfl rfl rfl rfl _ _ e l (by decide)]
  refine congrArg (fun r => (Wv (Proc.devRef .tc main_v5) : S100000x64.Idx → EReal) (ix2 r l)) (Fin.ext ?_)
  show min _ (100000 - 1) = _
  rw [col_edges_apply, wrap_apply]
  rfl

theorem host1_v17 (k : Fin 128) (l : Fin 64) :
    (StableHlo.after (hostOps1 (F := Ideal)) Wv (Proc.devRef .tc main_v17) : S128x64.Idx → EReal) (ix2 k l)
      = (Wv (Proc.devRef .tc main_arg4) : S64x128.Idx → EReal) (ix2 l k) := by
  after_results
  exact transpose_ix2_apply _ _ k l

theorem host1_v18 (l : Fin 64) :
    (StableHlo.after (hostOps1 (F := Ideal)) Wv (Proc.devRef .tc main_v18) : S1x64.Idx → EReal) (ix2 (0 : Fin 1) l)
      = (Wv (Proc.devRef .tc main_arg3) : S64.Idx → EReal) (ix1 l) := by
  after_results
  exact shapeCast_a_1a_apply _ _ 0 l

theorem spread_1x1_apply (v : S1x1.Idx → EReal) (u : Fin 100000) :
    broadcastInDim S100000x1 ![0, 1] bcast_S1x1_S100000x1_0_1 v (ix2 u (0 : Fin 1))
      = v (ix2 (0 : Fin 1) (0 : Fin 1)) := by
  refine broadcastInDim_apply _ _ v (ix2 u (0 : Fin 1)) (ix2 (0 : Fin 1) (0 : Fin 1)) fun a => ?_
  match a with
  | ⟨0, _⟩ => rfl
  | ⟨1, _⟩ => rfl

local notation:65 a:65 " +ₑ " b:66 => HAdd.hAdd (α := EReal) (β := EReal) a b

-- The same sum over column 0 of the two-column table, plus column 1, plus the one-entry bias.
theorem host2_v35 (u : Fin 100000) :
    (StableHlo.after (hostOps2 (F := Ideal)) Wv (Proc.devRef .tc main_v35) : S100000x1.Idx → EReal) (ix2 u (0 : Fin 1))
      = (((0 : EReal) + (∑ e ∈ Finset.univ.filter (fun e : Fin 1600000 =>
              Edges.hitOf ((Wv (Proc.devRef .tc main_v3) : S1600000.Idx → BitVec 32) (ix1 e)) u),
            (Wv (Proc.devRef .tc main_v19) : S100000x2.Idx → EReal)
              (ix2 (Edges.rowOf ((Wv (Proc.devRef .tc main_v1) : S1600000.Idx → BitVec 32) (ix1 e))) (0 : Fin 2)) : EReal))
          +ₑ (Wv (Proc.devRef .tc main_v19) : S100000x2.Idx → EReal) (ix2 u (1 : Fin 2)))
        +ₑ (Wv (Proc.devRef .tc main_arg6) : S1.Idx → EReal) (ix1 (0 : Fin 1)) := by
  after_results_simp
  rw [addf_apply, addf_apply, LibScatterGather2.scatterAdd_apply _ rfl rfl rfl rfl,
    slice2_axis1_apply 1 _ _ u 0 1 rfl, spread_1x1_apply]
  refine congrArg₂ (· + ·) (congrArg₂ (· + ·) (congrArg₂ (· + ·) LibIdealReal.ofBits_zero
    (Finset.sum_congr (Finset.filter_congr fun e _ => by rw [col_edges_apply]; exact Iff.rfl) fun e _ => ?_)) rfl)
    (shapeCast_apply _ shapeCasts_S1_S1x1 _ (ix1 (0 : Fin 1)) (by rw [Shape.rowMajor_val_two, Shape.rowMajor_val_one]; rfl))
  rw [LibScatterGather2.gather_apply_clamp _ rfl rfl rfl rfl rfl _ _ e (0 : Fin 1) (by decide),
    slice2_axis1_apply 0 _ _ _ 0 0 rfl]
  refine congrArg (fun r => (Wv (Proc.devRef .tc main_v19) : S100000x2.Idx → EReal) (ix2 r (0 : Fin 2))) (Fin.ext ?_)
  show min _ (100000 - 1) = _
  rw [col_edges_apply, wrap_apply]
  rfl

end Cert.KernelIdeal.Hand

end
-- ==== Proof.KI.Blocks2.lean ====
import proofs.«409459_j15066745274947_3_alg».proof.Proof.KI.Reg2
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F]

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

-- on a block that is the whole array the two index maps coincide
theorem cut2_2_eq_read (t : Fin cfg2.N) (G : Vec F S1x128 .f32) :
    (cfg2.win 2).cut (cfg2.grid.coords t) G = ((cfg2.win 2).blk t).view.read (Elt F) G := by
  obtain ⟨-, -, -, -, e0, e1⟩ := idx_facts2 t
  funext j
  show G ((cfg2.win 2).xinj (cfg2.grid.coords t) j) = G (((cfg2.win 2).blk t).view.emb j)
  refine congrArg G (Shape.idx_ext₂ ?_ ?_)
  · show (j 0).val = win2_2.index t (0 : Fin 2) * 1 + 1 * (j 0).val; omega
  · show (j 1).val = win2_2.index t (1 : Fin 2) * 128 + 1 * (j 1).val; omega

theorem mem_blk2_2 (t : Fin cfg2.N) (i : S1x128.Idx) : i ∈ ((cfg2.win 2).blk t).view.set := by
  obtain ⟨-, -, -, -, e0, e1⟩ := idx_facts2 t
  have h0 : (i 0).val < 1 := idx2_lt0 i
  have h1 : (i 1).val < 128 := idx2_lt1 i
  show i ∈ ((View.whole main_v36).slice (win2_2.rect t)).set
  rw [View.set_slice_whole, Rect.mem_set_unit]
  refine Fin.forall_fin_two.2 ⟨?_, ?_⟩
  · show win2_2.index t (0 : Fin 2) * 1 ≤ (i 0).val ∧ (i 0).val < win2_2.index t (0 : Fin 2) * 1 + 1; omega
  · show win2_2.index t (1 : Fin 2) * 128 ≤ (i 1).val ∧ (i 1).val < win2_2.index t (1 : Fin 2) * 128 + 128; omega

variable (V : (c : Dev nD) → (b : Ref sig .tc) → Buf (Elt F) ((c : Thread nD τ).loc b))

theorem iblk2_s_apply (c : Dev nD) (t : Fin cfg2.N) (p : Fin 5000) (h : 5000 * t.val + p.val < 100000) :
    (iblk2 V c 0 t : S5000x1.Idx → _) (ix2 p (0 : Fin 1))
      = (V c main_v35 : S100000x1.Idx → _) (ix2 ⟨5000 * t.val + p.val, h⟩ (0 : Fin 1)) := by
  obtain ⟨e0, e1, -⟩ := idx_facts2 t
  show (V c main_v35 : S100000x1.Idx → _) (((cfg2.win 0).blk t).view.emb (ix2 p (0 : Fin 1))) = _
  refine congrArg _ (Shape.idx_ext₂ ?_ ?_)
  · show win2_0.index t (0 : Fin 2) * 5000 + 1 * p.val = 5000 * t.val + p.val; omega
  · show win2_0.index t (1 : Fin 2) * 1 + 1 * 0 = 0; omega

theorem iblk2_x_apply (c : Dev nD) (t : Fin cfg2.N) (p : Fin 5000) (q : Fin 128) (h : 5000 * t.val + p.val < 100000) :
    (iblk2 V c 1 t : S5000x128.Idx → _) (ix2 p q)
      = (V c main_arg0 : S100000x128.Idx → _) (ix2 ⟨5000 * t.val + p.val, h⟩ q) := by
  obtain ⟨-, -, e0, e1, -⟩ := idx_facts2 t
  show (V c main_arg0 : S100000x128.Idx → _) (((cfg2.win 1).blk t).view.emb (ix2 p q)) = _
  refine congrArg _ (Shape.idx_ext₂ ?_ ?_)
  · show win2_1.index t (0 : Fin 2) * 5000 + 1 * p.val = 5000 * t.val + p.val; omega
  · show win2_1.index t (1 : Fin 2) * 128 + 1 * q.val = q.val; omega

theorem final2 (c : Dev nD) (h19 : 19 < cfg2.N) : (dat2 V c).arrAt 2 cfg2.N = (outsAt2 V c 19 h19).1 := by
  refine (dat2 V c).arrAt_eq_of_cover 2 _ (fun t hf => ?_) fun i => ⟨⟨19, h19⟩, (flush2_2 _).mpr rfl, mem_blk2_2 _ i⟩
  have ht : t.val % 20 = 19 := (flush2_2 t).mp hf
  have hlt : t.val < 20 := N_2 ▸ t.isLt
  obtain rfl : t = ⟨19, h19⟩ := Fin.ext (by show t.val = 19; omega)
  show (cfg2.win 2).cut (cfg2.grid.coords _) ((dat2 V c).after 2 _) = _
  rw [after2_2]
  exact cut2_2_eq_read _ _

end Cert.KernelIdeal.Hand
-- ==== Proof.KI.Reg2Pieces.lean ====
import proofs.«409459_j15066745274947_3_alg».proof.Proof.KI.Reg2
import proofs.«409459_j15066745274947_3_alg».proof.Proof.KI.Fold2
import Idealize.ShloMosaic.Lib.Pipeline.Value
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

theorem hz2 : (![0, 0] : Fin 2 → Nat) = fun _ => 0 := funext fun a => by fin_cases a <;> rfl

section
variable (c : Dev nD) (i : grid2.Coords) (arg1 : Memref sig .tc .vmem S5000x1 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x128 .f32) (harg6 : arg6.IsWhole) (x0 : Vec F S5000x1 .f32) (x1 : Vec F S5000x128 .f32)

-- each of the three is stored whole, so it is its last store's value: together one step of the fold
theorem state2_A_eq (hc0 : cond2_0 i) (hc1 : ¬cond2_1 i) :
    (outs2_A c i arg1 harg1 arg2 harg2 arg3 harg3 arg4 harg4 arg5 harg5 arg6 harg6 hc0 hc1 x0 x1).2 = step2 x0 x1 init2 := by
  unfold outs2_A kernelRun2_A
  dsimp only
  sl_unfold_words
  simp only [View.canon_cons_unit_zero (S := S1x1) hz2, View.canon_cons_unit_zero (S := S1x128) hz2, View.readAt_eq_ld, harg1.read_unread, harg2.read_unread, harg4.read_unread, harg5.read_unread, harg6.read_unread,
    View.ld_unit_zero (S := S5000x1) hz2, View.ld_unit_zero (S := S5000x128) hz2, View.ld_unit_zero (S := S1x1) hz2, View.ld_unit_zero (S := S1x128) hz2,
    View.readCov_unit_zero (S := S1x1) _ hz2, View.readCov_unit_zero (S := S1x128) _ hz2]
  rfl

variable (xs0 : Vec F S1x1 .f32) (xs1 : Vec F S1x1 .f32) (xs2 : Vec F S1x128 .f32)

theorem state2_B_eq (hc0 : ¬cond2_0 i) (hc1 : ¬cond2_1 i) :
    (outs2_B c i arg1 harg1 arg2 harg2 arg3 harg3 arg4 harg4 arg5 harg5 arg6 harg6 hc0 hc1 x0 x1 xs0 xs1 xs2).2 = step2 x0 x1 (xs0, xs1, xs2) := by
  unfold outs2_B kernelRun2_B
  dsimp only
  sl_unfold_words
  simp only [View.canon_cons_unit_zero (S := S1x1) hz2, View.canon_cons_unit_zero (S := S1x128) hz2, View.readAt_eq_ld, harg1.read_unread, harg2.read_unread, harg4.read_unread, harg5.read_unread, harg6.read_unread,
    View.ld_unit_zero (S := S5000x1) hz2, View.ld_unit_zero (S := S5000x128) hz2, View.ld_unit_zero (S := S1x1) hz2, View.ld_unit_zero (S := S1x128) hz2,
    View.readCov_unit_zero (S := S1x1) _ hz2, View.readCov_unit_zero (S := S1x128) _ hz2]
  rfl

-- at the last point the output is the pooled row of the new state
theorem state2_C_eq (hc0 : ¬cond2_0 i) (hc1 : cond2_1 i) :
    outs2_C c i arg1 harg1 arg2 harg2 arg3 harg3 arg4 harg4 arg5 harg5 arg6 harg6 hc0 hc1 x0 x1 xs0 xs1 xs2 = (pooled2 (step2 x0 x1 (xs0, xs1, xs2)), step2 x0 x1 (xs0, xs1, xs2)) := by
  unfold outs2_C kernelRun2_C
  dsimp only
  sl_unfold_words
  simp only [View.canon_cons_unit_zero (S := S1x1) hz2, View.canon_cons_unit_zero (S := S1x128) hz2, View.readAt_eq_ld, harg1.read_unread, harg2.read_unread, harg4.read_unread, harg5.read_unread, harg6.read_unread,
    View.ld_unit_zero (S := S5000x1) hz2, View.ld_unit_zero (S := S5000x128) hz2, View.ld_unit_zero (S := S1x1) hz2, View.ld_unit_zero (S := S1x128) hz2,
    View.readCov_unit_zero (S := S1x1) _ hz2, View.readCov_unit_zero (S := S1x128) _ hz2]
  rfl

end

variable (V : (c : Dev nD) → (b : Ref sig .tc) → Buf (Elt F) ((c : Thread nD τ).loc b))

-- by induction on the point: the running state after point n is n + 1 steps of the fold from the reset state
theorem outsAt2_scratch (c : Dev nD) (n : ℕ) (hn : n < cfg2.N) :
    (outsAt2 V c n hn).2 = scAt2 (fun t => iblk2 V c 0 t) (fun t => iblk2 V c 1 t) n hn := by
  induction n with
  | zero =>
    rw [outsAt2_A V c ⟨0, hn⟩ rfl (show ¬(0 : ℕ) = 19 by decide)]; unfold at2_A
    exact state2_A_eq ..
  | succ n ih =>
    have hz : ¬((⟨n + 1, hn⟩ : Fin cfg2.N).val = 0) := Nat.succ_ne_zero n
    rw [scAt2, ← ih (Nat.lt_of_succ_lt hn)]
    by_cases hl : (⟨n + 1, hn⟩ : Fin cfg2.N).val = 19
    · rw [outsAt2_C V c ⟨n + 1, hn⟩ hz hl]; unfold at2_C
      exact congrArg Prod.snd (state2_C_eq ..)
    · rw [outsAt2_B V c ⟨n + 1, hn⟩ hz hl]; unfold at2_B
      exact state2_B_eq ..

theorem outsAt2_out_succ (c : Dev nD) (n : ℕ) (hn : n + 1 < cfg2.N) (hl : n + 1 = 19) :
    (outsAt2 V c (n + 1) hn).1 = pooled2 (scAt2 (fun t => iblk2 V c 0 t) (fun t => iblk2 V c 1 t) (n + 1) hn) := by
  rw [outsAt2_C V c ⟨n + 1, hn⟩ (Nat.succ_ne_zero n) hl, scAt2, ← outsAt2_scratch V c n (Nat.lt_of_succ_lt hn)]; unfold at2_C
  exact congrArg Prod.fst (state2_C_eq ..)

theorem outsAt2_out_last (c : Dev nD) (h : 19 < cfg2.N) :
    (outsAt2 V c 19 h).1 = pooled2 (scAt2 (fun t => iblk2 V c 0 t) (fun t => iblk2 V c 1 t) 19 h) :=
  outsAt2_out_succ V c 18 h rfl

end Cert.KernelIdeal.Hand

end
-- ==== Proof.KI.Value.lean ====
import proofs.«409459_j15066745274947_3_alg».proof.Proof.KI.Run
import proofs.«409459_j15066745274947_3_alg».proof.Proof.KI.Val0
import proofs.«409459_j15066745274947_3_alg».proof.Proof.KI.Val1
import proofs.«409459_j15066745274947_3_alg».proof.Proof.KI.Val2
import proofs.«409459_j15066745274947_3_alg».proof.Proof.KI.ValHost
import proofs.«409459_j15066745274947_3_alg».proof.Proof.KI.Blocks2
import proofs.«409459_j15066745274947_3_alg».proof.Proof.KI.Reg2Pieces
import proofs.«409459_j15066745274947_3_alg».proof.Proof.Reads
import proofs.«409459_j15066745274947_3_alg».proof.Proof.LibIdealReal

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.LibIdealReal
open scoped BigOperators

namespace Value

variable (m : (ℓ : Loc nD τ sig) → Buf (Elt Ideal) ℓ) (c : Dev nD)

-- A stretch leaves what it does not write, and a region leaves what is no array of it.
theorem launched (r : Ref sig .tc) (h0 : r ∉ hostOps0_W := by decide) :
    U1 m c (Proc.devRef .tc r) = m ((c.tc : Thread nD τ).loc r) :=
  U1_keep m c r h0

theorem U3_eq_U1 (r : Ref sig .tc) (h1 : ∀ w, Pipeline.arrRef spec0 w ≠ r := by decide) (h2 : r ∉ hostOps1_W := by decide) :
    U3 m c (Proc.devRef .tc r) = U1 m c (Proc.devRef .tc r) :=
  (U3_keep m c r h2).trans (U2_of_ne m c r h1)

theorem U4_eq_U1 (r : Ref sig .tc) (h1 : ∀ w, Pipeline.arrRef spec0 w ≠ r := by decide) (h2 : r ∉ hostOps1_W := by decide)
    (h3 : ∀ w, Pipeline.arrRef spec1 w ≠ r := by decide) :
    U4 m c (Proc.devRef .tc r) = U1 m c (Proc.devRef .tc r) :=
  (U4_of_ne m c r h3).trans (U3_eq_U1 m c r h1 h2)

-- The node features are an input array of the first two regions, which leave their inputs as entered.
theorem U2_arg0 : U2 m c (Proc.devRef .tc main_arg0) = m ((c.tc : Thread nD τ).loc main_arg0) :=
  (U2_arr m c 0).trans (((dat0 (T1 m) c).arrAt_in 0 rfl _).trans ((A_eq0 (T1 m) c 0).trans (launched m c main_arg0)))

theorem U4_arg0 : U4 m c (Proc.devRef .tc main_arg0) = m ((c.tc : Thread nD τ).loc main_arg0) :=
  (U4_arr m c 1).trans (((dat1 (T3 m) c).arrAt_in 1 rfl _).trans
    ((A_eq1 (T3 m) c 1).trans ((U3_keep m c main_arg0 (by decide)).trans (U2_arg0 m c))))

variable (I : Spec.Inp)
  (h : Cert.Reads (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7)) I)

include h in
-- The two word arrays are still the two rows of the edge array, which spell what `I`'s edges read and hit.
theorem agg_read (V : Valuation τ sig (Elt Ideal))
    (h1 : V (Proc.devRef .tc main_v1) = U1 m c (Proc.devRef .tc main_v1))
    (h3 : V (Proc.devRef .tc main_v3) = U1 m c (Proc.devRef .tc main_v3))
    (G : Fin 100000 → EReal) (f : Fin 100000 → ℝ) (hG : ∀ v, G v = ((f v : ℝ) : EReal)) (u : Fin 100000) :
    (0 : EReal) + ∑ e ∈ Finset.univ.filter (fun e : Fin 1600000 =>
          Edges.hitOf ((V (Proc.devRef .tc main_v3) : S1600000.Idx → BitVec 32) (ix1 e)) u),
        G (Edges.rowOf ((V (Proc.devRef .tc main_v1) : S1600000.Idx → BitVec 32) (ix1 e)))
      = ((Spec.agg I f u : ℝ) : EReal) := by
  rw [zero_add, Finset.filter_congr fun e _ => (iff_of_eq (congrArg (Edges.hitOf · u)
    ((congrFun h3 (ix1 e)).trans (host0_v3 (U0 m c) e)))).trans (h.hit e u).symm]
  exact sum_of_eq _ _ (fun e => f (I.row e)) fun e _ =>
    (congrArg (fun w => G (Edges.rowOf w)) ((congrFun h1 (ix1 e)).trans (host0_v1 (U0 m c) e))).trans
      ((congrArg G (h.row e).symm).trans (hG _))

include h in
-- The first region multiplies the features by the first weight, which the first stretch transposed.
theorem U2_v5 (u : Fin 100000) (l : Fin 64) :
    (U2 m c (Proc.devRef .tc main_v5) : S100000x64.Idx → EReal) (ix2 u l) = ((Spec.Ker.xr I u l : ℝ) : EReal) :=
  (congrFun (U2_arr m c 2) (ix2 u l)).trans
    (final0_real (T1 m) c I.X (fun k l => I.A1 l k) (fun p q => (congrFun (launched m c main_arg0) (ix2 p q)).trans (h.x p q))
      (fun k l => (host0_v4 (U0 m c) k l).trans (h.w1 l k)) u l)

include h in
-- The second stretch adds, into every node, the projected rows its incoming edges read.
theorem T3_v16 (u : Fin 100000) (l : Fin 64) :
    (T3 m c main_v16 : S100000x64.Idx → EReal) (ix2 u l) = ((Spec.Ker.agg1 I u l : ℝ) : EReal) :=
  (host1_v16 (U2 m c) u l).trans
    (agg_read m c I h (U2 m c) (U2_of_ne m c main_v1 (by decide)) (U2_of_ne m c main_v3 (by decide))
      (fun v => (U2 m c (Proc.devRef .tc main_v5) : S100000x64.Idx → EReal) (ix2 v l))
      (fun v => Spec.Ker.xr I v l) (fun v => U2_v5 m c I h v l) u)

include h in
-- The second region adds the root term and the bias, rectifies, and projects on the two gate vectors.
theorem U4_v19 (u : Fin 100000) :
    (U4 m c (Proc.devRef .tc main_v19) : S100000x2.Idx → EReal) (ix2 u (0 : Fin 2)) = ((Spec.Ker.grel I u : ℝ) : EReal)
    ∧ (U4 m c (Proc.devRef .tc main_v19) : S100000x2.Idx → EReal) (ix2 u (1 : Fin 2)) = ((Spec.Ker.groot I u : ℝ) : EReal) := by
  rw [(U4_arr m c 6 : U4 m c (Proc.devRef .tc main_v19) = _)]
  exact final1_real (T3 m) c (Spec.Ker.agg1 I) I.X (fun k l => I.A4 l k) I.B1 I.A5 I.A7 I.κ (T3_v16 m c I h)
    (fun p q => (congrFun ((U3_keep m c main_arg0 (by decide)).trans (U2_arg0 m c)) (ix2 p q)).trans (h.x p q))
    (fun k l => (host1_v17 (U2 m c) k l).trans
      ((congrFun ((U2_of_ne m c main_arg4 (by decide)).trans (launched m c main_arg4)) (ix2 l k)).trans (h.w4 l k)))
    (fun l => (host1_v18 (U2 m c) l).trans
      ((congrFun ((U2_of_ne m c main_arg3 (by decide)).trans (launched m c main_arg3)) (ix1 l)).trans (h.b1 l)))
    (fun l => (congrFun ((U3_eq_U1 m c main_arg5).trans (launched m c main_arg5)) (ix2 (0 : Fin 1) l)).trans (h.w5 l))
    (fun l => (congrFun ((U3_eq_U1 m c main_arg7).trans (launched m c main_arg7)) (ix2 (0 : Fin 1) l)).trans (h.w7 l))
    h.slope u

include h in
-- The third stretch aggregates the first gate column over the edges and adds the second column and the last bias.
theorem T5_v35 (u : Fin 100000) :
    (T5 m c main_v35 : S100000x1.Idx → EReal) (ix2 u (0 : Fin 1)) = ((Spec.Ker.s I u : ℝ) : EReal) := by
  refine (host2_v35 (U4 m c) u).trans ((congrArg₂ (· + ·) (congrArg₂ (· + ·)
    (agg_read m c I h (U4 m c) (U4_eq_U1 m c main_v1) (U4_eq_U1 m c main_v3)
      (fun v => (U4 m c (Proc.devRef .tc main_v19) : S100000x2.Idx → EReal) (ix2 v (0 : Fin 2)))
      (Spec.Ker.grel I) (fun v => (U4_v19 m c I h v).1) u)
    (U4_v19 m c I h u).2)
    ((congrFun ((U4_eq_U1 m c main_arg6).trans (launched m c main_arg6)) (ix1 (0 : Fin 1))).trans h.b2)).trans ?_)
  rw [add_coe, add_coe]
  rfl

include h in
-- The third region pools the features with the softmax of the logits tile by tile; the tiles' fold is the one-shot pooling.
theorem _root_.Cert.KernelIdeal.Hand.kernel_value (d : Fin 128) :
    (U6 m c (Proc.devRef .tc main_v36) : S1x128.Idx → EReal) (ix2 (0 : Fin 1) d) = ((Spec.kerOut I d : ℝ) : EReal) := by
  have h19 : 19 < cfg2.N := by decide
  rw [(U6_result m c).trans ((final2 (T5 m) c h19).trans (outsAt2_out_last (T5 m) c h19))]
  exact fold2_real (Spec.Ker.s I) I.X (fun t => iblk2 (T5 m) c 0 t) (fun t => iblk2 (T5 m) c 1 t)
    (fun t p hp => (iblk2_s_apply (T5 m) c t p hp).trans (T5_v35 m c I h _))
    (fun t p q hp => (iblk2_x_apply (T5 m) c t p q hp).trans
      ((congrFun ((U5_keep m c main_arg0 (by decide)).trans (U4_arg0 m c)) (ix2 _ q)).trans (h.x _ q)))
    h19 d

end Value

end Cert.KernelIdeal.Hand

end
-- ==== Proof.RefTerm.lean ====
import proofs.«409459_j15066745274947_3_alg».proof.ReferenceIdeal
import Idealize.ShloMosaic.PureOps.Ideal

noncomputable section

namespace Cert.ReferenceIdeal.Hand

open Idealize.ShloMosaic Cert.ReferenceIdeal Cert.ReferenceIdeal.Facts₀

variable [Cert.ReferenceIdeal.Facts]

/-- Row 0 of the index array over the edges: the word naming the node each edge reads. -/
def src (a1 : IVec S2x1600000 32) : IVec S1600000 32 :=
  shapeCast S1600000 (extractStridedSlice S1x1600000 ![0, 0] a1 slices_S2x1600000_S1x1600000_0_0) shapeCasts_S1x1600000_S1600000

/-- Row 1: the word naming the node each edge adds into. -/
def dst (a1 : IVec S2x1600000 32) : IVec S1600000 32 :=
  shapeCast S1600000 (extractStridedSlice S1x1600000 ![1, 0] a1 slices_S2x1600000_S1x1600000_1_0) shapeCasts_S1x1600000_S1600000

/-- A negative word counts from the end of the table. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

def col (v : IVec S1600000 32) : IVec S1600000x1 32 := broadcastInDim S1600000x1 ![0] bcast_S1600000_S1600000x1_0 v

/-- One value on every node. -/
def spread (v : FVec Ideal S1 .f32) : FVec Ideal S100000x1 .f32 :=
  broadcastInDim S100000x1 ![0, 1] bcast_S1x1_S100000x1_0_1 (broadcastInDim S1x1 ![1] bcast_S1_S1x1_1 v)

/-- Per node, the sum of the rows of `x` that the edges hitting it read. -/
def agg1 (s d : IVec S1600000 32) (x : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (col d)
    (Host.gather gather_S100000x128_S1600000x1_S1600000x128_1_0_n_n_0_1_1128 x (col (wrap s)))

def agg2 (s d : IVec S1600000 32) (x : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (col d)
    (Host.gather gather_S100000x64_S1600000x1_S1600000x64_1_0_n_n_0_1_164 x (col (wrap s)))

/-- A graph convolution: aggregated rows on the relation weights, plus the bias, plus own rows on the root weights. -/
def layer1 (a0 : FVec Ideal S100000x128 .f32) (s d : IVec S1600000 32) (a2 : FVec Ideal S64x128 .f32) (a3 : FVec Ideal S64 .f32)
    (a4 : FVec Ideal S64x128 .f32) : FVec Ideal S100000x64 .f32 :=
  addf (addf (Host.dotGeneral (F := Ideal) dot_S100000x128_S128x64_S100000x64_1_0_0_1_n_n none (agg1 s d a0)
        (transpose S128x64 [1, 0] a2 transposes_S64x128_S128x64_1_0))
      (broadcastInDim S100000x64 ![0, 1] bcast_S1x64_S100000x64_0_1 (broadcastInDim S1x64 ![1] bcast_S64_S1x64_1 a3)))
    (Host.dotGeneral (F := Ideal) dot_S100000x128_S128x64_S100000x64_1_0_0_1_n_n none a0
      (transpose S128x64 [1, 0] a4 transposes_S64x128_S128x64_1_0))

/-- The leaky rectifier: an entry at least zero is kept, any other is scaled by the slope. -/
def leaky (x : FVec Ideal S100000x64 .f32) : FVec Ideal S100000x64 .f32 :=
  select (cmpf .oge x (broadcastInDim S100000x64 ![] bcast_S_S100000x64 (constant (F := Ideal) S_ .f32 0x00000000#32))) x
    (mulf (broadcastInDim S100000x64 ![] bcast_S_S100000x64 (id (constant (F := Ideal) S_ .f32 0x3E4CCCCD#32))) x)

/-- The second convolution: one logit per node. -/
def logits (s d : IVec S1600000 32) (h : FVec Ideal S100000x64 .f32) (a5 : FVec Ideal S1x64 .f32) (a6 : FVec Ideal S1 .f32)
    (a7 : FVec Ideal S1x64 .f32) : FVec Ideal S100000x1 .f32 :=
  addf (addf (Host.dotGeneral (F := Ideal) dot_S100000x64_S64x1_S100000x1_1_0_0_1_n_n none (agg2 s d h)
        (transpose S64x1 [1, 0] a5 transposes_S1x64_S64x1_1_0)) (spread a6))
    (Host.dotGeneral (F := Ideal) dot_S100000x64_S64x1_S100000x1_1_0_0_1_n_n none h (transpose S64x1 [1, 0] a7 transposes_S1x64_S64x1_1_0))

/-- The exponential of each logit less the largest. -/
def expShift (z : FVec Ideal S100000x1 .f32) : FVec Ideal S100000x1 .f32 :=
  Host.exp (F := Ideal) (subf z (spread (maximumf (broadcastInDim S1 ![] bcast_S_S1 (constant (F := Ideal) S_ .f32 0xFF800000#32))
    (Host.reduce (FloatOps.maximumf (F := Ideal)) z (constant (F := Ideal) S_ .f32 0xFF800000#32) reducesTo_S100000x1_S1_d0 h_S_))))

/-- The weights `e` divided by their sum, applied to the node features. -/
def pooled (e : FVec Ideal S100000x1 .f32) (a0 : FVec Ideal S100000x128 .f32) : FVec Ideal S1x128 .f32 :=
  Host.dotGeneral (F := Ideal) dot_S1x100000_S100000x128_S1x128_1_0_0_1_n_n none
    (transpose S1x100000 [1, 0] (Host.divf (F := Ideal) e
      (spread (Host.reduceAdd (F := Ideal) e (constant (F := Ideal) S_ .f32 0x00000000#32) reducesTo_S100000x1_S1_d0 h_S_)))
      transposes_S100000x1_S1x100000_1_0) a0

/-- What the reference returns. -/
def refTerm (a0 : FVec Ideal S100000x128 .f32) (a1 : IVec S2x1600000 32) (a2 : FVec Ideal S64x128 .f32) (a3 : FVec Ideal S64 .f32)
    (a4 : FVec Ideal S64x128 .f32) (a5 : FVec Ideal S1x64 .f32) (a6 : FVec Ideal S1 .f32) (a7 : FVec Ideal S1x64 .f32) :
    FVec Ideal S1x128 .f32 :=
  pooled (expShift (logits (src a1) (dst a1) (leaky (layer1 a0 (src a1) (dst a1) a2 a3 a4)) a5 a6 a7)) a0

end Cert.ReferenceIdeal.Hand

end
-- ==== Proof.RefRun.lean ====
import proofs.«409459_j15066745274947_3_alg».proof.Proof.RefTerm
import proofs.«409459_j15066745274947_3_alg».proof.Proof.Gen.ReferenceIdeal
import Idealize.ShloMosaic.Lib.StableHlo.Run
import Idealize.ShloMosaic.Lib.Pipeline.Frame
import Idealize.ShloMosaic.Adequacy
import Idealize.ShloMosaic.Init

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable [Cert.ReferenceIdeal.Facts]

local macro "Fl[" S:term "]" : term => `((⟨$S, .f32⟩ : BufTy).Contents (Elt Ideal))
local macro "Wd[" S:term "]" : term => `((⟨$S, .i32⟩ : BufTy).Contents (Elt Ideal))
local macro "Bt[" S:term "]" : term => `((⟨$S, .i1⟩ : BufTy).Contents (Elt Ideal))

abbrev ops : List (HloOp τ sig (Elt Ideal)) :=
  [
    unary main_arg1 main_v0 ((extractStridedSlice S1x1600000 ![0, 0] · slices_S2x1600000_S1x1600000_0_0) : Wd[S2x1600000] → Wd[S1x1600000]),
    reshape main_v0 main_v1 rfl shapeCasts_S1x1600000_S1600000,
    unary main_arg1 main_v2 ((extractStridedSlice S1x1600000 ![1, 0] · slices_S2x1600000_S1x1600000_1_0) : Wd[S2x1600000] → Wd[S1x1600000]),
    reshape main_v2 main_v3 rfl shapeCasts_S1x1600000_S1600000,
    nullary main_c (constantI S_ 32 0#32),
    unary main_c main_v4 (broadcastInDim S1600000 ![] bcast_S_S1600000),
    binary main_v1 main_v4 main_v5 (cmpi .slt),
    nullary main_c_0 (constantI S_ 32 100000#32),
    unary main_c_0 main_v6 (broadcastInDim S1600000 ![] bcast_S_S1600000),
    binary main_v1 main_v6 main_v7 addi,
    ternary main_v5 main_v7 main_v1 main_v8 select,
    unary main_v8 main_v9 (broadcastInDim S1600000x1 ![0] bcast_S1600000_S1600000x1_0),
    binary main_arg0 main_v9 main_v10 ((fun x i => Host.gather gather_S100000x128_S1600000x1_S1600000x128_1_0_n_n_0_1_1128 x i)
      : Fl[S100000x128] → Wd[S1600000x1] → Fl[S1600000x128]),
    nullary main_cst (constant (F := Ideal) S_ .f32 0x00000000#32),
    unary main_cst main_v11 (broadcastInDim S100000x128 ![] bcast_S_S100000x128),
    unary main_v3 main_v12 (broadcastInDim S1600000x1 ![0] bcast_S1600000_S1600000x1_0),
    ternary main_v11 main_v12 main_v10 main_v13 ((fun x i u => Host.scatterAdd (F := Ideal) (φ := .f32) scatter_S100000x128_S1600000x1_S1600000x128_1_0_0_1 x i u)
      : Fl[S100000x128] → Wd[S1600000x1] → Fl[S1600000x128] → Fl[S100000x128]),
    unary main_arg2 main_v14 ((transpose S128x64 [1, 0] · transposes_S64x128_S128x64_1_0) : Fl[S64x128] → Fl[S128x64]),
    binary main_v13 main_v14 main_v15 ((fun l r => Host.dotGeneral (F := Ideal) (φ₁ := .f32) (φ₂ := .f32) dot_S100000x128_S128x64_S100000x64_1_0_0_1_n_n none l r)
      : Fl[S100000x128] → Fl[S128x64] → Fl[S100000x64]),
    unary main_arg3 main_v16 (broadcastInDim S1x64 ![1] bcast_S64_S1x64_1),
    unary main_v16 main_v17 (broadcastInDim S100000x64 ![0, 1] bcast_S1x64_S100000x64_0_1),
    binary main_v15 main_v17 main_v18 (addf (F := Ideal) (φ := .f32)),
    unary main_arg4 main_v19 ((transpose S128x64 [1, 0] · transposes_S64x128_S128x64_1_0) : Fl[S64x128] → Fl[S128x64]),
    binary main_arg0 main_v19 main_v20 ((fun l r => Host.dotGeneral (F := Ideal) (φ₁ := .f32) (φ₂ := .f32) dot_S100000x128_S128x64_S100000x64_1_0_0_1_n_n none l r)
      : Fl[S100000x128] → Fl[S128x64] → Fl[S100000x64]),
    binary main_v18 main_v20 main_v21 (addf (F := Ideal) (φ := .f32)),
    nullary main_cst_1 (constant (F := Ideal) S_ .f32 0x3E4CCCCD#32),
    TRef.nullary main_call0.cst (constant (F := Ideal) S_ .f32 0x00000000#32),
    TRef.unary main_call0.cst main_call0.v0 (broadcastInDim S100000x64 ![] bcast_S_S100000x64),
    TRef.binary (TRef.of main_v21 : TRef sig ⟨S100000x64, .f32⟩) main_call0.v0 main_call0.v1 (cmpf (F := Ideal) (φ := .f32) .oge),
    TRef.unary (TRef.of main_cst_1 : TRef sig ⟨S_, .f32⟩) main_call0.v2 id,
    TRef.unary main_call0.v2 main_call0.v3 (broadcastInDim S100000x64 ![] bcast_S_S100000x64),
    TRef.binary main_call0.v3 (TRef.of main_v21 : TRef sig ⟨S100000x64, .f32⟩) main_call0.v4 (mulf (F := Ideal) (φ := .f32)),
    TRef.ternary main_call0.v1 (TRef.of main_v21 : TRef sig ⟨S100000x64, .f32⟩) main_call0.v4 main_call0.call0.v0 select,
    nullary main_c_2 (constantI S_ 32 0#32),
    unary main_c_2 main_v23 (broadcastInDim S1600000 ![] bcast_S_S1600000),
    binary main_v1 main_v23 main_v24 (cmpi .slt),
    nullary main_c_3 (constantI S_ 32 100000#32),
    unary main_c_3 main_v25 (broadcastInDim S1600000 ![] bcast_S_S1600000),
    binary main_v1 main_v25 main_v26 addi,
    ternary main_v24 main_v26 main_v1 main_v27 select,
    unary main_v27 main_v28 (broadcastInDim S1600000x1 ![0] bcast_S1600000_S1600000x1_0),
    binary main_v22 main_v28 main_v29 ((fun x i => Host.gather gather_S100000x64_S1600000x1_S1600000x64_1_0_n_n_0_1_164 x i)
      : Fl[S100000x64] → Wd[S1600000x1] → Fl[S1600000x64]),
    nullary main_cst_4 (constant (F := Ideal) S_ .f32 0x00000000#32),
    unary main_cst_4 main_v30 (broadcastInDim S100000x64 ![] bcast_S_S100000x64),
    unary main_v3 main_v31 (broadcastInDim S1600000x1 ![0] bcast_S1600000_S1600000x1_0),
    ternary main_v30 main_v31 main_v29 main_v32 ((fun x i u => Host.scatterAdd (F := Ideal) (φ := .f32) scatter_S100000x64_S1600000x1_S1600000x64_1_0_0_1 x i u)
      : Fl[S100000x64] → Wd[S1600000x1] → Fl[S1600000x64] → Fl[S100000x64]),
    unary main_arg5 main_v33 ((transpose S64x1 [1, 0] · transposes_S1x64_S64x1_1_0) : Fl[S1x64] → Fl[S64x1]),
    binary main_v32 main_v33 main_v34 ((fun l r => Host.dotGeneral (F := Ideal) (φ₁ := .f32) (φ₂ := .f32) dot_S100000x64_S64x1_S100000x1_1_0_0_1_n_n none l r)
      : Fl[S100000x64] → Fl[S64x1] → Fl[S100000x1]),
    unary main_arg6 main_v35 (broadcastInDim S1x1 ![1] bcast_S1_S1x1_1),
    unary main_v35 main_v36 (broadcastInDim S100000x1 ![0, 1] bcast_S1x1_S100000x1_0_1),
    binary main_v34 main_v36 main_v37 (addf (F := Ideal) (φ := .f32)),
    unary main_arg7 main_v38 ((transpose S64x1 [1, 0] · transposes_S1x64_S64x1_1_0) : Fl[S1x64] → Fl[S64x1]),
    binary main_v22 main_v38 main_v39 ((fun l r => Host.dotGeneral (F := Ideal) (φ₁ := .f32) (φ₂ := .f32) dot_S100000x64_S64x1_S100000x1_1_0_0_1_n_n none l r)
      : Fl[S100000x64] → Fl[S64x1] → Fl[S100000x1]),
    binary main_v37 main_v39 main_v40 (addf (F := Ideal) (φ := .f32)),
    nullary main_cst_5 (constant (F := Ideal) S_ .f32 0xFF800000#32),
    binary main_v40 main_cst_5 main_v41 ((fun x v => Host.reduce (FloatOps.maximumf (F := Ideal) (φ := .f32)) x v reducesTo_S100000x1_S1_d0 h_S_)
      : Fl[S100000x1] → Fl[S_] → Fl[S1]),
    nullary main_cst_6 (constant (F := Ideal) S_ .f32 0xFF800000#32),
    unary main_cst_6 main_v42 (broadcastInDim S1 ![] bcast_S_S1),
    binary main_v42 main_v41 main_v43 (maximumf (F := Ideal) (φ := .f32)),
    unary main_v43 main_v44 (broadcastInDim S1x1 ![1] bcast_S1_S1x1_1),
    unary main_v44 main_v45 (broadcastInDim S100000x1 ![0, 1] bcast_S1x1_S100000x1_0_1),
    binary main_v40 main_v45 main_v46 (subf (F := Ideal) (φ := .f32)),
    unary main_v46 main_v47 (Host.exp (F := Ideal) (φ := .f32)),
    nullary main_cst_7 (constant (F := Ideal) S_ .f32 0x00000000#32),
    binary main_v47 main_cst_7 main_v48 ((fun x v => Host.reduceAdd (F := Ideal) (φ := .f32) x v reducesTo_S100000x1_S1_d0 h_S_)
      : Fl[S100000x1] → Fl[S_] → Fl[S1]),
    unary main_v48 main_v49 (broadcastInDim S1x1 ![1] bcast_S1_S1x1_1),
    unary main_v49 main_v50 (broadcastInDim S100000x1 ![0, 1] bcast_S1x1_S100000x1_0_1),
    binary main_v47 main_v50 main_v51 (Host.divf (F := Ideal) (φ := .f32)),
    unary main_v51 main_v52 ((transpose S1x100000 [1, 0] · transposes_S100000x1_S1x100000_1_0) : Fl[S100000x1] → Fl[S1x100000]),
    binary main_v52 main_arg0 main_v53 ((fun l r => Host.dotGeneral (F := Ideal) (φ₁ := .f32) (φ₂ := .f32) dot_S1x100000_S100000x128_S1x128_1_0_0_1_n_n none l r)
      : Fl[S1x100000] → Fl[S100000x128] → Fl[S1x128]) ]

/-- The reference is that straight line, the rectifier and the select it calls taken at the place of the call. -/
theorem main_eq (c : Dev nD) : main (F := Ideal) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig := by
  simp only [ops, List.Forall, nullary_bufs_sub, unary_bufs_sub, binary_bufs_sub, ternary_bufs_sub, reshape_bufs_sub, and_self]

/-- The first layer's 25 operations: what they leave from the arguments, and the arguments they leave alone. -/
theorem first_eq (V : Valuation τ sig (Elt Ideal)) :
    after (ops.take 25) V main_v21
        = layer1 (V main_arg0) (src (V main_arg1)) (dst (V main_arg1)) (V main_arg2) (V main_arg3) (V main_arg4)
      ∧ after (ops.take 25) V main_v1 = src (V main_arg1) ∧ after (ops.take 25) V main_v3 = dst (V main_arg1)
      ∧ after (ops.take 25) V main_arg0 = V main_arg0 ∧ after (ops.take 25) V main_arg5 = V main_arg5
      ∧ after (ops.take 25) V main_arg6 = V main_arg6 ∧ after (ops.take 25) V main_arg7 = V main_arg7 := by
  refine ⟨?_, ?_, ?_, ?_, ?_, ?_, ?_⟩ <;> simp only [ops, List.take] <;> after_results_simp <;> rfl

/-- The other 45, over what the first layer left: each stage a function of the stage before. -/
theorem second_eq (W : Valuation τ sig (Elt Ideal)) :
    after (ops.drop 25) W main_v53
      = pooled (expShift (logits (W main_v1) (W main_v3) (leaky (W main_v21)) (W main_arg5) (W main_arg6) (W main_arg7))) (W main_arg0) := by
  simp only [ops, List.drop]; after_results_simp; rfl

/-- No operation writes an argument. -/
theorem args_eq (V : Valuation τ sig (Elt Ideal)) :
    after ops V main_arg0 = V main_arg0 ∧ after ops V main_arg1 = V main_arg1 ∧ after ops V main_arg2 = V main_arg2
      ∧ after ops V main_arg3 = V main_arg3 ∧ after ops V main_arg4 = V main_arg4 ∧ after ops V main_arg5 = V main_arg5
      ∧ after ops V main_arg6 = V main_arg6 ∧ after ops V main_arg7 = V main_arg7 := by
  refine ⟨?_, ?_, ?_, ?_, ?_, ?_, ?_, ?_⟩ <;> simp only [ops] <;> after_results_simp

/-- The result buffer holds the reference's term of the arguments' contents. -/
theorem v53_eq (V : Valuation τ sig (Elt Ideal)) :
    after ops V main_v53
      = refTerm (V main_arg0) (V main_arg1) (V main_arg2) (V main_arg3) (V main_arg4) (V main_arg5) (V main_arg6) (V main_arg7) := by
  obtain ⟨h21, h1, h3, h0, h5, h6, h7⟩ := first_eq V
  rw [← List.take_append_drop 25 ops, after_append, second_eq, h21, h1, h3, h0, h5, h6, h7]; rfl

/-- Every weakly fair execution of the reference terminates with the result buffer at `refTerm` of the arguments' launch
    contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v53)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => by simp only [h c]; exact ⟨v53_eq _, args_eq _⟩)
    (run_seq scopedRefs_eq scopedSems_eq defs main (fun _ => ops) main_eq (fun _ => ops_sub) m ρ)

end Cert.ReferenceIdeal.Hand

end
-- ==== Proof.RefVal1.lean ====
import proofs.«409459_j15066745274947_3_alg».proof.Proof.RefTerm
import proofs.«409459_j15066745274947_3_alg».proof.Proof.Reads
import proofs.«409459_j15066745274947_3_alg».proof.Proof.LibIdealReal
import proofs.«409459_j15066745274947_3_alg».proof.Proof.LibPlainDot
import proofs.«409459_j15066745274947_3_alg».proof.Proof.LibScatterGather2
import Idealize.ShloMosaic.Lib.Pipeline.Value
import Idealize.ShloMosaic.Lib.ValueIdx
import Idealize.ShloMosaic.Lib.ValueLayout
import Idealize.ShloMosaic.Lib.IdealHost

noncomputable section

namespace Cert.ReferenceIdeal.Hand

open Idealize.ShloMosaic Idealize.ShloMosaic.ValueIdx Cert.ReferenceIdeal Cert.ReferenceIdeal.Facts₀ Cert.LibIdealReal
open scoped BigOperators

theorem wrap_word (w : BitVec 32) :
    Scalar.select (IntOp.cmpi .slt w 0#32) (IntOp.addi w 100000#32) w = if w.slt 0#32 then w + 100000#32 else w := by
  show Scalar.select (BitVec.ofBool (w.slt 0#32)) (w + 100000#32) w = _
  cases w.slt 0#32
  exacts [select_zero _ _, select_one _ _]

theorem cmp_oge_coe (a b : ℝ) : Ideal.cmp .oge (a : EReal) (b : EReal) = if b ≤ a then 1#1 else 0#1 := by
  by_cases h : b ≤ a <;> simp [Ideal.cmp, h]

/-- A product of two real matrices. -/
theorem dot_real {A K B : ℕ} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![A, K]⟩ .f32) (rhs : FVec Ideal ⟨2, ![K, B]⟩ .f32)
    (f : Fin A → Fin K → ℝ) (g : Fin K → Fin B → ℝ)
    (hl : ∀ p k, lhs (ix2 p k) = ((f p k : ℝ) : EReal)) (hr : ∀ k q, rhs (ix2 k q) = ((g k q : ℝ) : EReal))
    (p : Fin A) (q : Fin B) :
    Host.dotGeneral (F := Ideal) d none lhs rhs (ix2 p q) = ((∑ k, f p k * g k q : ℝ) : EReal) := by
  show FloatOps.dotGeneral d none .single lhs rhs (ix2 p q) = _
  rw [Cert.LibPlainDot.dotGeneral_apply d hlc hrc hln hrn hlb hrb]
  exact sum_of_eq Finset.univ _ _ (fun k _ => by rw [hl, hr, mul_coe])

variable [Cert.ReferenceIdeal.Facts]

theorem src_apply (a1 : IVec S2x1600000 32) (e : Fin 1600000) : src a1 (ix1 e) = a1 (ix2 (0 : Fin 2) e) := by
  unfold src
  rw [shapeCast_1a_a_apply]
  exact slice2_axis0_apply 0 a1 _ (0 : Fin 1) e (0 : Fin 2) rfl

theorem dst_apply (a1 : IVec S2x1600000 32) (e : Fin 1600000) : dst a1 (ix1 e) = a1 (ix2 (1 : Fin 2) e) := by
  unfold dst
  rw [shapeCast_1a_a_apply]
  exact slice2_axis0_apply 1 a1 _ (0 : Fin 1) e (1 : Fin 2) rfl

theorem wrap_apply (v : IVec S1600000 32) (e : Fin 1600000) :
    wrap v (ix1 e) = if (v (ix1 e)).slt 0#32 then v (ix1 e) + 100000#32 else v (ix1 e) := by
  show Scalar.select (IntOp.cmpi .slt (v (ix1 e)) (broadcastInDim S1600000 ![] bcast_S_S1600000 (constantI S_ 32 0#32) (ix1 e)))
      (IntOp.addi (v (ix1 e)) (broadcastInDim S1600000 ![] bcast_S_S1600000 (constantI S_ 32 100000#32) (ix1 e))) (v (ix1 e)) = _
  rw [broadcastInDim_scalar_apply, broadcastInDim_scalar_apply]
  exact wrap_word _

theorem col_apply (v : IVec S1600000 32) (e : Fin 1600000) (z : Fin 1) : col v (ix2 e z) = v (ix1 e) := by
  refine broadcastInDim_apply _ bcast_S1600000_S1600000x1_0 v (ix2 e z) (ix1 e) fun a => ?_
  match a with
  | ⟨0, _⟩ => rfl

theorem spread_apply (v : FVec Ideal S1 .f32) (u : Fin 100000) (z : Fin 1) : spread v (ix2 u z) = v (ix1 (0 : Fin 1)) := by
  refine (broadcastInDim_apply _ bcast_S1x1_S100000x1_0_1 _ (ix2 u z) (ix2 (0 : Fin 1) (0 : Fin 1)) fun a => ?_).trans
    (broadcastInDim_apply _ bcast_S1_S1x1_1 v _ (ix1 (0 : Fin 1)) fun a => ?_)
  · match a with
    | ⟨0, _⟩ => rfl
    | ⟨1, _⟩ => rfl
  · match a with
    | ⟨0, _⟩ => rfl

theorem bias_apply (b : FVec Ideal S64 .f32) (u : Fin 100000) (l : Fin 64) :
    broadcastInDim S100000x64 ![0, 1] bcast_S1x64_S100000x64_0_1 (broadcastInDim S1x64 ![1] bcast_S64_S1x64_1 b) (ix2 u l) = b (ix1 l) := by
  refine (broadcastInDim_apply _ bcast_S1x64_S100000x64_0_1 _ (ix2 u l) (ix2 (0 : Fin 1) l) fun a => ?_).trans
    (broadcastInDim_apply _ bcast_S64_S1x64_1 b _ (ix1 l) fun a => ?_)
  · match a with
    | ⟨0, _⟩ => rfl
    | ⟨1, _⟩ => rfl
  · match a with
    | ⟨0, _⟩ => rfl

variable {a0 : FVec Ideal S100000x128 .f32} {a1 : IVec S2x1600000 32} {a2 : FVec Ideal S64x128 .f32}
  {a3 : FVec Ideal S64 .f32} {a4 : FVec Ideal S64x128 .f32} {a5 : FVec Ideal S1x64 .f32} {a6 : FVec Ideal S1 .f32}
  {a7 : FVec Ideal S1x64 .f32} (I : Spec.Inp) (h : Cert.Reads a0 a1 a2 a3 a4 a5 a6 a7 I)
include h

/-- Gathering the rows the edges read and adding them, from zero, into the nodes the edges hit is `Spec.agg`. -/
theorem agg_apply {C : ℕ} (g : GatherDims ⟨2, ![100000, C]⟩ ⟨2, ![1600000, 1]⟩ ⟨2, ![1600000, C]⟩)
    (sc : ScatterDims ⟨2, ![100000, C]⟩ ⟨2, ![1600000, 1]⟩ ⟨2, ![1600000, C]⟩)
    (hoff : g.offsetDims = [1]) (hcoll : g.collapsedSliceDims = [0]) (hob : g.operandBatchingDims = [])
    (hsim : g.startIndexMap = [0]) (hgv : g.indexVectorDim = 1)
    (huw : sc.updateWindowDims = [1]) (hiw : sc.insertedWindowDims = [0]) (hsd : sc.scatterDimsToOperandDims = [0])
    (hsv : sc.indexVectorDim = 1) (hz : S_.BroadcastsInDim ⟨2, ![100000, C]⟩ ![])
    (x : FVec Ideal ⟨2, ![100000, C]⟩ .f32) (f : Fin 100000 → Fin C → ℝ) (hx : ∀ u j, x (ix2 u j) = ((f u j : ℝ) : EReal))
    (u : Fin 100000) (j : Fin C) :
    Host.scatterAdd (F := Ideal) sc (broadcastInDim _ ![] hz (constant (F := Ideal) S_ .f32 0x00000000#32)) (col (dst a1))
        (Host.gather g x (col (wrap (src a1)))) (ix2 u j)
      = ((Spec.agg I (fun v => f v j) u : ℝ) : EReal) := by
  have hit : ∀ e, (col (dst a1) (ix2 e (0 : Fin 1))).toInt = (u.val : ℤ) ↔ I.hit e u := fun e => by
    rw [col_apply, dst_apply]; exact (h.hit e u).symm
  rw [Cert.LibScatterGather2.scatterAdd_apply sc huw hiw hsd hsv, broadcastInDim_scalar_apply, constant_apply, ofBits_zero, zero_add,
    Finset.filter_congr fun e _ => hit e]
  unfold Spec.agg
  refine sum_of_eq _ _ _ fun e _ => ?_
  rw [Cert.LibScatterGather2.gather_apply_clamp g hoff hcoll hob hsim hgv x _ e j (by decide), h.row e, ← hx]
  refine congrArg (fun r => x (ix2 r j)) (Fin.ext ?_)
  show min (col (wrap (src a1)) (ix2 e (0 : Fin 1))).toInt.toNat (100000 - 1) = _
  rw [col_apply, wrap_apply, src_apply]
  rfl

theorem layer1_apply (u : Fin 100000) (l : Fin 64) :
    layer1 a0 (src a1) (dst a1) a2 a3 a4 (ix2 u l) = ((Spec.Ref.pre1 I u l : ℝ) : EReal) := by
  unfold layer1 agg1 Spec.Ref.pre1
  rw [addf_apply, addf_apply, bias_apply, h.b1, ← add_coe, ← add_coe]
  refine congrArg₂ (· + ·) (congrArg₂ (· + ·) ?_ rfl) ?_
  · exact dot_real dot_S100000x128_S128x64_S100000x64_1_0_0_1_n_n rfl rfl rfl rfl rfl rfl _ _ (Spec.Ref.agg1 I) (fun d l => I.A1 l d)
      (agg_apply I h _ _ rfl rfl rfl rfl rfl rfl rfl rfl rfl _ a0 I.X h.x) (fun d l => by rw [transpose_ix2_apply, h.w1]) u l
  · exact dot_real dot_S100000x128_S128x64_S100000x64_1_0_0_1_n_n rfl rfl rfl rfl rfl rfl _ _ I.X (fun d l => I.A4 l d) h.x
      (fun d l => by rw [transpose_ix2_apply, h.w4]) u l

/-- The hidden layer of the reference is the real model's. -/
theorem ref_h (u : Fin 100000) (l : Fin 64) :
    leaky (layer1 a0 (src a1) (dst a1) a2 a3 a4) (ix2 u l) = ((Spec.Ref.h I u l : ℝ) : EReal) := by
  unfold leaky
  rw [select_apply, cmpf_apply, mulf_apply, broadcastInDim_scalar_apply, broadcastInDim_scalar_apply, layer1_apply I h]
  show Scalar.select (Ideal.cmp .oge _ (Ideal.ofBits .f32 0x00000000#32)) _ (Ideal.ofBits .f32 0x3E4CCCCD#32 * _) = _
  rw [ofBits_zero_coe, h.slope, mul_coe, cmp_oge_coe]
  unfold Spec.Ref.h Spec.leaky
  by_cases h0 : (0 : ℝ) ≤ Spec.Ref.pre1 I u l
  · rw [if_pos h0, if_pos h0]; exact select_one _ _
  · rw [if_neg h0, if_neg h0]; exact select_zero _ _

end Cert.ReferenceIdeal.Hand

end
-- ==== Proof.RefVal2.lean ====
import proofs.«409459_j15066745274947_3_alg».proof.Proof.RefVal1
import Idealize.ShloMosaic.PureOps.Ideal.Laws
import Idealize.ShloMosaic.PureOps.Reduce
import Mathlib.Analysis.SpecialFunctions.Exp
import Mathlib.Algebra.Order.BigOperators.Group.Finset

noncomputable section

namespace Cert.ReferenceIdeal.Hand

open Idealize.ShloMosaic Idealize.ShloMosaic.ValueIdx Cert.ReferenceIdeal Cert.ReferenceIdeal.Facts₀ Cert.LibIdealReal
open scoped BigOperators

/-- The index of a column's row k over the one result index. -/
theorem lift_col {N : ℕ} (h : (⟨2, ![N, 1]⟩ : Shape).Reduces [0] ⟨1, ![1]⟩) (k : Fin N) :
    h.lift (ix1 (0 : Fin 1)) k = ix2 k (0 : Fin 1) := by
  funext c
  apply Fin.ext
  match c with
  | ⟨0, _⟩ => rfl
  | ⟨1, _⟩ => rfl

variable [Cert.ReferenceIdeal.Facts]

/-- The largest of a column of reals. -/
theorem col_max (x : FVec Ideal S100000x1 .f32) (s : Fin 100000 → ℝ) (hx : ∀ u, x (ix2 u (0 : Fin 1)) = ((s u : ℝ) : EReal)) :
    Host.reduce (FloatOps.maximumf (F := Ideal)) x (constant (F := Ideal) S_ .f32 0xFF800000#32) reducesTo_S100000x1_S1_d0 h_S_
        (ix1 (0 : Fin 1)) = ((Spec.smax s : ℝ) : EReal) := by
  have h : S100000x1.Reduces [0] S1 := by decide
  unfold Spec.smax
  rw [Host.reduce_eq_fold_single _ x _ _ h]
  show Finset.univ.fold _ (Ideal.ofBits .f32 0xFF800000#32) _ = _
  rw [ofBits_neg_inf]
  exact fold_maximumf_bot_of_eq Finset.univ _ _ s fun k => by
    show x (h.lift _ k) = _
    rw [lift_col, hx]

/-- The sum of a column of reals. -/
theorem col_sum (x : FVec Ideal S100000x1 .f32) (f : Fin 100000 → ℝ) (hx : ∀ u, x (ix2 u (0 : Fin 1)) = ((f u : ℝ) : EReal)) :
    Host.reduceAdd (F := Ideal) x (constant (F := Ideal) S_ .f32 0x00000000#32) reducesTo_S100000x1_S1_d0 h_S_ (ix1 (0 : Fin 1))
      = ((∑ u, f u : ℝ) : EReal) := by
  have h : S100000x1.Reduces [0] S1 := by decide
  rw [hostReduceAdd_apply, Ideal.hostReduceAdd_single _ h]
  show Ideal.ofBits .f32 0x00000000#32 + _ = _
  rw [ofBits_zero, zero_add]
  exact sum_of_eq Finset.univ _ f fun k _ => by rw [lift_col, hx]

/-- A sum of exponentials is not zero. -/
theorem sden_ne_zero (s : Fin 100000 → ℝ) : Spec.sden s ≠ 0 :=
  ne_of_gt (Finset.sum_pos (fun u _ => Real.exp_pos _) ⟨(0 : Fin 100000), Finset.mem_univ _⟩)

/-- From logits that are reals: the exponential of each less their maximum. -/
theorem expShift_apply (z : FVec Ideal S100000x1 .f32) (s : Fin 100000 → ℝ) (hz : ∀ u, z (ix2 u (0 : Fin 1)) = ((s u : ℝ) : EReal))
    (u : Fin 100000) : expShift z (ix2 u (0 : Fin 1)) = ((Real.exp (s u - Spec.smax s) : ℝ) : EReal) := by
  unfold expShift
  show Ideal.exp _ = _
  rw [subf_apply, spread_apply, maximumf_apply, broadcastInDim_scalar_apply, hz,
    col_max z s hz]
  show Ideal.exp (_ - max (Ideal.ofBits .f32 0xFF800000#32) _) = _
  rw [ofBits_neg_inf, max_eq_right bot_le, sub_coe, exp_coe]

variable {a0 : FVec Ideal S100000x128 .f32} {a1 : IVec S2x1600000 32} {a2 : FVec Ideal S64x128 .f32}
  {a3 : FVec Ideal S64 .f32} {a4 : FVec Ideal S64x128 .f32} {a5 : FVec Ideal S1x64 .f32} {a6 : FVec Ideal S1 .f32}
  {a7 : FVec Ideal S1x64 .f32}

section
variable (I : Spec.Inp) (h : Cert.Reads a0 a1 a2 a3 a4 a5 a6 a7 I)
include h

theorem logits_apply (u : Fin 100000) :
    logits (src a1) (dst a1) (leaky (layer1 a0 (src a1) (dst a1) a2 a3 a4)) a5 a6 a7 (ix2 u (0 : Fin 1))
      = ((Spec.Ref.s I u : ℝ) : EReal) := by
  unfold logits agg2 Spec.Ref.s
  rw [addf_apply, addf_apply, spread_apply, h.b2, ← add_coe, ← add_coe]
  refine congrArg₂ (· + ·) (congrArg₂ (· + ·) ?_ rfl) ?_
  · exact dot_real dot_S100000x64_S64x1_S100000x1_1_0_0_1_n_n rfl rfl rfl rfl rfl rfl _ _ (Spec.Ref.agg2 I) (fun l _ => I.A5 l)
      (agg_apply I h _ _ rfl rfl rfl rfl rfl rfl rfl rfl rfl _ _ (Spec.Ref.h I) (ref_h I h))
      (fun l q => by rw [Fin.fin_one_eq_zero q, transpose_ix2_apply, h.w5]) u 0
  · exact dot_real dot_S100000x64_S64x1_S100000x1_1_0_0_1_n_n rfl rfl rfl rfl rfl rfl _ _ (Spec.Ref.h I) (fun l _ => I.A7 l) (ref_h I h)
      (fun l q => by rw [Fin.fin_one_eq_zero q, transpose_ix2_apply, h.w7]) u 0

/-- From weights that are reals: each divided by their sum, applied to the node features. -/
theorem pooled_apply (e : FVec Ideal S100000x1 .f32) (w : Fin 100000 → ℝ) (he : ∀ u, e (ix2 u (0 : Fin 1)) = ((w u : ℝ) : EReal))
    (hw : ∑ u, w u ≠ 0) (d : Fin 128) :
    pooled e a0 (ix2 (0 : Fin 1) d) = ((∑ u, w u / (∑ v, w v) * I.X u d : ℝ) : EReal) := by
  unfold pooled
  refine dot_real dot_S1x100000_S100000x128_S1x128_1_0_0_1_n_n rfl rfl rfl rfl rfl rfl _ _ (fun _ u => w u / ∑ v, w v) I.X
    (fun p u => ?_) h.x 0 d
  rw [Fin.fin_one_eq_zero p, transpose_ix2_apply, hostDivf_apply, spread_apply, he, col_sum e w he,
    div_coe _ hw]

end

/-- The reference's result on real inputs is the softmax-pooled feature row of the specification. -/
theorem ref_value (I : Spec.Inp) (h : Cert.Reads a0 a1 a2 a3 a4 a5 a6 a7 I) (d : Fin 128) :
    refTerm a0 a1 a2 a3 a4 a5 a6 a7 (ix2 (0 : Fin 1) d) = ((Spec.refOut I d : ℝ) : EReal) :=
  pooled_apply I h _ _ (expShift_apply _ _ (logits_apply I h)) (sden_ne_zero _) d

end Cert.ReferenceIdeal.Hand

end
-- ==== Proof.Reals.lean ====
import proofs.«409459_j15066745274947_3_alg».proof.Pre_finite_inputs
import proofs.«409459_j15066745274947_3_alg».proof.Proof.Reads
import proofs.«409459_j15066745274947_3_alg».proof.Proof.LibIdealReal
import Idealize.ShloMosaic.Lib.ReduceAll
import Idealize.ShloMosaic.Lib.ValueIdx
import Idealize.ShloMosaic.PureOps.Ideal

noncomputable section

namespace Cert

open Idealize.ShloMosaic Idealize.ShloMosaic.ValueIdx Cert.Pre_finite_inputs

namespace Reals

-- The pattern denotes the top element, and an extended real whose absolute value is below it is neither infinity.
theorem real_of_cmp (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | coe r => exact ⟨r, rfl⟩
  | bot => simp [Ideal.cmp] at h
  | top => simp [Ideal.cmp] at h

-- A conjunction over a whole array is one only if every entry's comparison is.
theorem all_real {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
        (cmpf .olt (Host.absf x) (broadcastInDim s ![] bc (constant (F := Ideal) S_ .f32 0x7F800000#32)))
        (constantI S_ 1 1#1) hr hu ix0 = 1#1) (i : s.Idx) : ∃ r : ℝ, x i = (r : EReal) :=
  real_of_cmp (x i) (Host.reduce_andi_all _ _ hr hu ix0 e i)

-- The slope literal's exponent field is not all ones.
theorem slope_real : ∃ κ : ℝ, Ideal.ofBits .f32 0x3E4CCCCD#32 = ((κ : ℝ) : EReal) := by
  have hne : ((0x3E4CCCCD#32 : BitVec 32).extractLsb' 23 8).toNat ≠ 2 ^ 8 - 1 := by decide
  show ∃ κ : ℝ, Ideal.ieee 8 23 (0x3E4CCCCD#32 : BitVec 32) = ((κ : ℝ) : EReal)
  unfold Ideal.ieee
  dsimp only
  rw [if_neg hne]
  split <;> exact ⟨_, rfl⟩

end Reals

-- Choose the real behind every finite entry; the edges are read off the index array's two rows.
theorem exists_reads [Facts] (a0 : FVec Ideal S100000x128 .f32) (a1 : IVec S2x1600000 32) (a2 : FVec Ideal S64x128 .f32) (a3 : FVec Ideal S64 .f32) (a4 : FVec Ideal S64x128 .f32) (a5 : FVec Ideal S1x64 .f32) (a6 : FVec Ideal S1 .f32) (a7 : FVec Ideal S1x64 .f32)
    (h : fn (F := Ideal) a0 a1 a2 a3 a4 a5 a6 a7 = (fun _ => 1#1)) :
    ∃ I : Spec.Inp, Cert.Reads a0 a1 a2 a3 a4 a5 a6 a7 I := by
  have e := congrFun h ix0
  dsimp only [fn, fn_part1] at e
  have hand : ∀ (x y : IVec S_ 1), andi x y ix0 = IntOp.andi (x ix0) (y ix0) := fun _ _ => rfl
  simp only [hand, IntOp.andi_eq_one] at e
  obtain ⟨⟨⟨⟨⟨⟨h0, h2⟩, h3⟩, h4⟩, h5⟩, h6⟩, h7⟩ := e
  choose f0 hf0 using Reals.all_real a0 _ _ _ h0
  choose f2 hf2 using Reals.all_real a2 _ _ _ h2
  choose f3 hf3 using Reals.all_real a3 _ _ _ h3
  choose f4 hf4 using Reals.all_real a4 _ _ _ h4
  choose f5 hf5 using Reals.all_real a5 _ _ _ h5
  choose f6 hf6 using Reals.all_real a6 _ _ _ h6
  choose f7 hf7 using Reals.all_real a7 _ _ _ h7
  obtain ⟨κ, hκ⟩ := Reals.slope_real
  exact ⟨{ X := fun p q => f0 (ix2 p q)
           A1 := fun l d => f2 (ix2 l d)
           B1 := fun l => f3 (ix1 l)
           A4 := fun l d => f4 (ix2 l d)
           A5 := fun l => f5 (ix2 (0 : Fin 1) l)
           B2 := f6 (ix1 (0 : Fin 1))
           A7 := fun l => f7 (ix2 (0 : Fin 1) l)
           κ := κ
           row := fun e => Edges.rowOf (a1 (ix2 (0 : Fin 2) e))
           hit := fun e u => Edges.hitOf (a1 (ix2 (1 : Fin 2) e)) u
           dhit := fun _ _ => inferInstance },
         { x := fun p q => hf0 (ix2 p q)
           w1 := fun l d => hf2 (ix2 l d)
           b1 := fun l => hf3 (ix1 l)
           w4 := fun l d => hf4 (ix2 l d)
           w5 := fun l => hf5 (ix2 (0 : Fin 1) l)
           b2 := hf6 (ix1 (0 : Fin 1))
           w7 := fun l => hf7 (ix2 (0 : Fin 1) l)
           slope := hκ
           row := fun _ => rfl
           hit := fun _ _ => Iff.rfl }⟩

end Cert

end
-- ==== Proof.Algebra.lean ====
import proofs.«409459_j15066745274947_3_alg».proof.Proof.Spec
import Mathlib.Algebra.BigOperators.Ring.Finset
import Mathlib.Algebra.BigOperators.Field

namespace Cert.Algebra

open Finset Cert.Spec

-- Distribute the product over the inner sum and exchange the two finite sums.
theorem agg_mul_sum {ι : Type*} [Fintype ι] (I : Inp) (f : Fin 100000 → ι → ℝ) (w : ι → ℝ) (u : Fin 100000) :
    (∑ d, agg I (fun v => f v d) u * w d) = agg I (fun v => ∑ d, f v d * w d) u := by
  unfold agg
  simp_rw [sum_mul]
  exact sum_comm

-- Aggregation commutes with the projection; the three terms are then added in another order.
theorem h_eq (I : Inp) : Ker.h I = Ref.h I := by
  funext u l
  refine congrArg (leaky I.κ) ?_
  unfold Ker.pre1 Ref.pre1 Ker.agg1 Ker.xr Ref.agg1
  rw [agg_mul_sum I I.X (I.A1 l) u]
  ring

theorem s_eq (I : Inp) : Ker.s I = Ref.s I := by
  funext u
  unfold Ker.s Ref.s Ker.agg2 Ker.grel Ker.groot Ref.agg2
  rw [h_eq, agg_mul_sum I (Ref.h I) I.A5 u]
  ring

-- Division distributes over the finite sum.
theorem kerOut_eq_refOut (I : Inp) (d : Fin 128) : kerOut I d = refOut I d := by
  unfold kerOut refOut poolK pool
  rw [s_eq, sum_div]
  exact sum_congr rfl fun u _ => (div_mul_eq_mul_div _ _ _).symm

end Cert.Algebra
-- ==== Proof.lean ====
import proofs.«409459_j15066745274947_3_alg».proof.Defs
import proofs.«409459_j15066745274947_3_alg».proof.Proof.Gen.Kernel
import proofs.«409459_j15066745274947_3_alg».proof.Proof.Gen.KernelIdeal
import proofs.«409459_j15066745274947_3_alg».proof.Proof.Gen.ReferenceIdeal
import proofs.«409459_j15066745274947_3_alg».proof.Proof.Gen.Pre_finite_inputs
import proofs.«409459_j15066745274947_3_alg».proof.Proof.K.Run
import proofs.«409459_j15066745274947_3_alg».proof.Proof.KI.Run
import proofs.«409459_j15066745274947_3_alg».proof.Proof.KI.Value
import proofs.«409459_j15066745274947_3_alg».proof.Proof.RefRun
import proofs.«409459_j15066745274947_3_alg».proof.Proof.RefVal2
import proofs.«409459_j15066745274947_3_alg».proof.Proof.Reals
import proofs.«409459_j15066745274947_3_alg».proof.Proof.Algebra
import Idealize.ShloMosaic.Adequacy
import Idealize.ShloMosaic.Init

noncomputable section

namespace Cert.Proof

open Idealize.ShloMosaic Idealize.ShloMosaic.TcCoe Idealize.ShloMosaic.ValueIdx Idealize.SL.Sem

-- Finite inputs are coerced reals; on them both results are, entry by entry, the coercion of one real row.
theorem algebraic : Cert.algebraic_KernelIdeal_ReferenceIdeal := by
  intro m ρ m' ρ' hpre hagree
  refine ⟨fun c => Cert.KernelIdeal.Hand.U6 m c (Proc.devRef .tc Cert.KernelIdeal.main_v36),
    Cert.KernelIdeal.Hand.run_main (F := Ideal) m ρ, ?_⟩
  refine (θ_run (Cert.ReferenceIdeal.defs (F := Ideal)) _ _).mono (fun _ h c => ⟨(h c).1.trans ?_, (h c).2⟩)
    (Cert.ReferenceIdeal.Hand.run m' ρ')
  obtain ⟨I, hI⟩ := Cert.exists_reads _ _ _ _ _ _ _ _ (hpre c)
  obtain ⟨e0, e1, e2, e3, e4, e5, e6, e7⟩ := hagree c
  rw [e0, e1, e2, e3, e4, e5, e6, e7]
  funext i
  obtain ⟨p, q, rfl⟩ : ∃ (p : Fin 1) (q : Fin 128), i = ix2 p q := ⟨i 0, i 1, eq_ix2 i⟩
  obtain rfl : p = 0 := Subsingleton.elim _ _
  exact (Cert.ReferenceIdeal.Hand.ref_value I hI q).trans
    ((congrArg (fun r : ℝ => (r : EReal)) (Cert.Algebra.kerOut_eq_refOut I q)).symm.trans
      (Cert.KernelIdeal.Hand.kernel_value m c I hI q).symm)

-- Each frame is the program's run with the result forgotten.
theorem claim : Cert.Claim :=
  ⟨Cert.Kernel.Gen.facts, Cert.KernelIdeal.Gen.facts, Cert.ReferenceIdeal.Gen.facts, Cert.Pre_finite_inputs.Gen.facts,
    fun m ρ _ => (θ_run (Cert.Kernel.defs (F := Bits)) _ _).mono (fun _ h c => (h c).2) (Cert.Kernel.Hand.run_main (F := Bits) m ρ),
    fun m ρ _ => (θ_run (Cert.KernelIdeal.defs (F := Ideal)) _ _).mono (fun _ h c => (h c).2)
      (Cert.KernelIdeal.Hand.run_main (F := Ideal) m ρ),
    fun m ρ _ => (θ_run (Cert.ReferenceIdeal.defs (F := Ideal)) _ _).mono (fun _ h c => (h c).2) (Cert.ReferenceIdeal.Hand.run m ρ),
    trivial, algebraic⟩

end Cert.Proof

end
